-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v113_1)) (v1 : (c : Dev Cert.KernelIdeal.nD) → Buf (Elt Ideal) ((c.tc : Thread Cert.KernelIdeal.nD Cert.KernelIdeal.τ).loc Cert.KernelIdeal.main_v113_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113_1) = v0 c
          ∧ r.2.mem ((c.tc : Thread Cert.KernelIdeal.nD Cert.KernelIdeal.τ).loc Cert.KernelIdeal.main_v113_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x600000 : Shape := ⟨2, ![2, 600000]⟩
abbrev S40000 : Shape := ⟨1, ![40000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg16 : FVec F S6 .f32) (main_v63 : IVec S_ 1) (main_v67 : IVec S_ 1) : IVec S_ 1 :=
  let main_v68 : IVec S_ 1 := andi main_v63 main_v67
  let main_v69 : FVec F S6 .f32 := Host.absf main_arg16
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x6 .f32) (main_arg16 : FVec F S6 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x6 .f32 := Host.absf main_arg15
  let main_cst_24 : FVec F S_ .f32 := constant S_ .f32 0x7F800000#32
  let main_v65 : FVec F S128x6 .f32 := broadcastInDim S128x6 ![] bcast_S_S128x6 main_cst_24
  let main_v66 : IVec S128x6 1 := cmpf .olt main_v64 main_v65
  let main_c_25 : IVec S_ 1 := constantI S_ 1 1#1
  let main_v67 : IVec S_ 1 := (fun x v => Host.reduce IntOp.andi x v reducesTo_S128x6_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x6 .f32) (main_arg16 : FVec F S6 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x6 .f32) (main_arg16 : FVec F S6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S40000x128 .f32) (main_arg1 : IVec S2x600000 32) (main_arg2 : IVec S40000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x6 .f32) (main_arg16 : FVec F S6 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S40000x128 : Shape := ⟨2, ![40000, 128]⟩
abbrev S2x600000 : Shape := ⟨2, ![2, 600000]⟩
abbrev S40000 : Shape := ⟨1, ![40000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x600000 : Shape := ⟨2, ![1, 600000]⟩
abbrev S600000 : Shape := ⟨1, ![600000]⟩
abbrev S640000 : Shape := ⟨1, ![640000]⟩
abbrev S_ : Shape := ⟨0, ![]⟩
abbrev S640000x1 : Shape := ⟨2, ![640000, 1]⟩
abbrev S600000x1 : Shape := ⟨2, ![600000, 1]⟩
abbrev S600000x128 : Shape := ⟨2, ![600000, 128]⟩
abbrev S8000x128 : Shape := ⟨2, ![8000, 128]⟩
abbrev S1x128 : Shape := ⟨2, ![1, 128]⟩
abbrev S640000x128 : Shape := ⟨2, ![640000, 128]⟩
abbrev S40000x1 : Shape := ⟨2, ![40000, 1]⟩
abbrev S32 : Shape := ⟨1, ![32]⟩
abbrev S1x32 : Shape := ⟨2, ![1, 32]⟩
abbrev S40000x32 : Shape := ⟨2, ![40000, 32]⟩
abbrev S32x1 : Shape := ⟨2, ![32, 1]⟩
abbrev S32x128 : Shape := ⟨2, ![32, 128]⟩
abbrev S32x6 : Shape := ⟨2, ![32, 6]⟩
abbrev S8000x32 : Shape := ⟨2, ![8000, 32]⟩
abbrev S32x8000 : Shape := ⟨2, ![32, 8000]⟩
abbrev S1x6 : Shape := ⟨2, ![1, 6]⟩

abbrev nBuf : Space → Nat
  | .hbm => 159
  | .vmem => 43
  | .smem => 0
  | _ => 0

abbrev hbmTy0_0 (i : Nat) : BufTy := match i % 128 with
  | 0 => ⟨S40000x128, .f32⟩
  | 1 => ⟨S2x600000, .i32⟩
  | 2 => ⟨S40000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x6, .f32⟩
  | 16 => ⟨S6, .f32⟩
  | 17 => ⟨S1x600000, .i32⟩
  | 18 => ⟨S600000, .i32⟩
  | 19 => ⟨S1x600000, .i32⟩
  | 20 => ⟨S600000, .i32⟩
  | 21 => ⟨S40000, .i32⟩
  | 22 => ⟨S640000, .i32⟩
  | 23 => ⟨S640000, .i32⟩
  | 24 => ⟨S_, .f32⟩
  | 25 => ⟨S640000, .f32⟩
  | 26 => ⟨S_, .f32⟩
  | 27 => ⟨S40000, .f32⟩
  | 28 => ⟨S640000x1, .i32⟩
  | 29 => ⟨S40000, .f32⟩
  | 30 => ⟨S40000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S640000, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S_, .f32⟩
  | 60 => ⟨S40000x128, .f32⟩
  | 61 => ⟨S600000x1, .i32⟩
  | 62 => ⟨S40000x128, .f32⟩
  | 63 => ⟨S40000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .f32⟩
  | 74 => ⟨S40000x128, .f32⟩
  | 75 => ⟨S600000x1, .i32⟩
  | 76 => ⟨S40000x128, .f32⟩
  | 77 => ⟨S40000x128, .f32⟩
  | 78 => ⟨S40000x128, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000x128, .f32⟩
  | 88 => ⟨S640000x1, .f32⟩
  | 89 => ⟨S640000x128, .f32⟩
  | 90 => ⟨S640000x128, .f32⟩
  | 91 => ⟨S_, .f32⟩
  | 92 => ⟨S40000x128, .f32⟩
  | 93 => ⟨S640000x1, .i32⟩
  | 94 => ⟨S40000x128, .f32⟩
  | 95 => ⟨S1x128, .f32⟩
  | 96 => ⟨S40000x128, .f32⟩
  | 97 => ⟨S40000x128, .f32⟩
  | 98 => ⟨S_, .f32⟩
  | 99 => ⟨S40000x128, .f32⟩
  | 100 => ⟨S40000x128, .f32⟩
  | 101 => ⟨S40000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x1, .f32⟩
  | 112 => ⟨S640000x128, .f32⟩
  | 113 => ⟨S640000x128, .f32⟩
  | 114 => ⟨S_, .f32⟩
  | 115 => ⟨S40000x128, .f32⟩
  | 116 => ⟨S640000x1, .i32⟩
  | 117 => ⟨S40000x128, .f32⟩
  | 118 => ⟨S1x128, .f32⟩
  | 119 => ⟨S40000x128, .f32⟩
  | 120 => ⟨S40000x128, .f32⟩
  | 121 => ⟨S_, .f32⟩
  | 122 => ⟨S40000x128, .f32⟩
  | 123 => ⟨S40000x128, .f32⟩
  | 124 => ⟨S40000x128, .f32⟩
  | 125 => ⟨S_, .i32⟩
  | 126 => ⟨S640000, .i32⟩
  | 127 => ⟨S640000, .i1⟩
  | _ => ⟨S40000x128, .f32⟩

abbrev hbmTy0_1 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S640000x128, .f32⟩
  | 6 => ⟨S640000x1, .f32⟩
  | 7 => ⟨S640000x128, .f32⟩
  | 8 => ⟨S640000x128, .f32⟩
  | 9 => ⟨S_, .f32⟩
  | 10 => ⟨S40000x128, .f32⟩
  | 11 => ⟨S640000x1, .i32⟩
  | 12 => ⟨S40000x128, .f32⟩
  | 13 => ⟨S1x128, .f32⟩
  | 14 => ⟨S40000x128, .f32⟩
  | 15 => ⟨S40000x128, .f32⟩
  | 16 => ⟨S40000x1, .i32⟩
  | 17 => ⟨S32, .i32⟩
  | 18 => ⟨S1x32, .i32⟩
  | 19 => ⟨S40000x32, .i32⟩
  | 20 => ⟨S40000x32, .i32⟩
  | 21 => ⟨S40000x32, .i1⟩
  | 22 => ⟨S40000x32, .f32⟩
  | 23 => ⟨S_, .f32⟩
  | 24 => ⟨S32, .f32⟩
  | 25 => ⟨S32x1, .f32⟩
  | 26 => ⟨S_, .f32⟩
  | 27 => ⟨S32x1, .f32⟩
  | 28 => ⟨S32x1, .f32⟩
  | 29 => ⟨S32x128, .f32⟩
  | 30 => ⟨S32x6, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S128x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S128x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S8000x128, .f32⟩
  | .local _ .vmem, ⟨30, _⟩ => ⟨S128x128, .f32⟩
  | .local _ .vmem, ⟨31, _⟩ => ⟨S8000x128, .f32⟩
  | .local _ .vmem, ⟨32, _⟩ => ⟨S8000x128, .f32⟩
  | .local _ .vmem, ⟨33, _⟩ => ⟨S8000x32, .f32⟩
  | .local _ .vmem, ⟨34, _⟩ => ⟨S8000x32, .f32⟩
  | .local _ .vmem, ⟨35, _⟩ => ⟨S8000x128, .f32⟩
  | .local _ .vmem, ⟨36, _⟩ => ⟨S8000x128, .f32⟩
  | .local _ .vmem, ⟨37, _⟩ => ⟨S32x1, .f32⟩
  | .local _ .vmem, ⟨38, _⟩ => ⟨S128x6, .f32⟩
  | .local _ .vmem, ⟨39, _⟩ => ⟨S6, .f32⟩
  | .local _ .vmem, ⟨40, _⟩ => ⟨S32x128, .f32⟩
  | .local _ .vmem, ⟨41, _⟩ => ⟨S32x6, .f32⟩
  | .local _ .vmem, ⟨42, _⟩ => ⟨S32x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call0_cst : Ref sig .tc := ⟨.hbm, 98, rfl⟩
abbrev main_call0_v0 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call1_cst : Ref sig .tc := ⟨.hbm, 121, rfl⟩
abbrev main_call1_v0 : Ref sig .tc := ⟨.hbm, 122, rfl⟩
abbrev main_v84 : Ref sig .tc := ⟨.hbm, 123, rfl⟩
abbrev main_v85 : Ref sig .tc := ⟨.hbm, 124, rfl⟩
abbrev main_c_16 : Ref sig .tc := ⟨.hbm, 125, rfl⟩
abbrev main_v86 : Ref sig .tc := ⟨.hbm, 126, rfl⟩
abbrev main_v87 : Ref sig .tc := ⟨.hbm, 127, rfl⟩
abbrev main_c_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_18 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_19 : Ref sig .tc := ⟨.hbm, 151, rfl⟩
abbrev main_v109 : Ref sig .tc := ⟨.hbm, 152, rfl⟩
abbrev main_v110 : Ref sig .tc := ⟨.hbm, 153, rfl⟩
abbrev main_cst_20 : Ref sig .tc := ⟨.hbm, 154, rfl⟩
abbrev main_v111 : Ref sig .tc := ⟨.hbm, 155, rfl⟩
abbrev main_v112 : Ref sig .tc := ⟨.hbm, 156, rfl⟩
abbrev main_v113_0 : Ref sig .tc := ⟨.hbm, 157, rfl⟩
abbrev main_v113_1 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc5_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def k5_cond2 (i : grid5.Coords) : BitVec 1 :=
  let arg0 : BitVec 32 := BitVec.ofNat 32 (i 0).val
  let c4_i32 : BitVec 32 := 4#32
  let v16 : BitVec 1 := Scalar.cmpi .eq arg0 c4_i32
  let v17 : BitVec 32 := Scalar.extui v16
  let c0_i32_8 : BitVec 32 := 0#32
  let v18 : BitVec 1 := Scalar.cmpi .ne v17 c0_i32_8
  v18

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x6 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S6 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S32x6 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S40000_S640000_d0 : Shape.Concatenates [S600000, S40000] S640000 0
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S40000x128 : S_.BroadcastsInDim S40000x128 (![] : Fin 0 → Fin S40000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S640000x1_S640000x128_0_1 : S640000x1.BroadcastsInDim S640000x128 (![0, 1] : Fin 2 → Fin S640000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S40000_S40000x1_0 : S40000.BroadcastsInDim S40000x1 (![0] : Fin 1 → Fin S40000x1.rank)
  bcast_S32_S1x32_1 : S32.BroadcastsInDim S1x32 (![1] : Fin 1 → Fin S1x32.rank)
  bcast_S40000x1_S40000x32_0_1 : S40000x1.BroadcastsInDim S40000x32 (![0, 1] : Fin 2 → Fin S40000x32.rank)
  bcast_S1x32_S40000x32_0_1 : S1x32.BroadcastsInDim S40000x32 (![0, 1] : Fin 2 → Fin S40000x32.rank)
  reducesTo_S40000x32_S32_d0 : S40000x32.ReducesTo [0] S32
  h_S_ : 0 < S_.numel
  shapeCasts_S32_S32x1 : S32.ShapeCasts S32x1
  bcast_S_S32x1 : S_.BroadcastsInDim S32x1 (![] : Fin 0 → Fin S32x1.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  transposes_S8000x32_p1_0_S32x8000 : S8000x32.Transposes [1, 0] S32x8000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S128x6_S128x6_0_0 : ∀ a, (![0, 0] : Fin 2 → Nat) a + S128x6.size a ≤ S128x6.size a
  h_S128x6 : 0 < S128x6.numel
  inb_S6_S6_0 : ∀ a, (![0] : Fin 1 → Nat) a + S6.size a ≤ S6.size a
  h_S6 : 0 < S6.numel
  shapeCasts_S6_S1x6 : S6.ShapeCasts S1x6
  broadcasts_S1x6_S32x6 : S1x6.Broadcasts S32x6
  inb_S32x6_S32x6_0_0 : ∀ a, (![0, 0] : Fin 2 → Nat) a + S32x6.size a ≤ S32x6.size a
  h_S32x6 : 0 < S32x6.numel
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S600000x1_S600000x128_1_0_n_n_0_1_1128_wf : GatherDims.WF S40000x128 S600000x1 S600000x128 [1] [0] [] [0] [] 1 ![1, 128]
  scatter_S40000x128_S600000x1_S600000x128_1_0_0_1_wf : ScatterDims.WF S40000x128 S600000x1 S600000x128 [1] [0] [0] 1
  dot_S8000x128_S128x128_S8000x128_1_0_0_1_n_n_wf : DotDims.WF S8000x128 S128x128 S8000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S32x8000_S8000x128_S32x128_1_0_0_1_n_n_wf : DotDims.WF S32x8000 S8000x128 S32x128 [1] [0] [0] [1] [] []
  dot_S32x128_S128x6_S32x6_1_0_0_1_n_n_wf : DotDims.WF S32x128 S128x6 S32x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S40000x128.size a
  hwx0_0 : ∀ i : grid0.Coords, EltTy.bits .f32 = 32 ∨ (Rect.block (s := S40000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S40000x128.size a
  hwx0_1 : ∀ i : grid0.Coords, EltTy.bits .f32 = 32 ∨ (Rect.block (s := S40000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S40000x128.size a
  hwx0_5 : ∀ i : grid0.Coords, EltTy.bits .f32 = 32 ∨ (Rect.block (s := S40000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S40000x128.size a
  hwx1_0 : ∀ i : grid1.Coords, EltTy.bits .f32 = 32 ∨ (Rect.block (s := S40000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S40000x128.size a
  hwx1_1 : ∀ i : grid1.Coords, EltTy.bits .f32 = 32 ∨ (Rect.block (s := S40000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S40000x128.size a
  hwx1_5 : ∀ i : grid1.Coords, EltTy.bits .f32 = 32 ∨ (Rect.block (s := S40000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S40000x128.size a
  hwx2_0 : ∀ i : grid2.Coords, EltTy.bits .f32 = 32 ∨ (Rect.block (s := S40000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S40000x128.size a
  hwx2_2 : ∀ i : grid2.Coords, EltTy.bits .f32 = 32 ∨ (Rect.block (s := S40000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S40000x128.size a
  hwx3_0 : ∀ i : grid3.Coords, EltTy.bits .f32 = 32 ∨ (Rect.block (s := S40000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x128.size a ≤ S40000x128.size a
  hwx3_2 : ∀ i : grid3.Coords, EltTy.bits .f32 = 32 ∨ (Rect.block (s := S40000x128) S8000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S40000x128.size a
  hwx4_0 : ∀ i : grid4.Coords, EltTy.bits .f32 = 32 ∨ (Rect.block (s := S40000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S40000x128.size a
  hwx4_2 : ∀ i : grid4.Coords, EltTy.bits .f32 = 32 ∨ (Rect.block (s := S40000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S40000x32.size a
  hwx5_0 : ∀ i : grid5.Coords, EltTy.bits .f32 = 32 ∨ (Rect.block (s := S40000x32) S8000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S40000x128.size a
  hwx5_1 : ∀ i : grid5.Coords, EltTy.bits .f32 = 32 ∨ (Rect.block (s := S40000x128) S8000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x1.size a ≤ S32x1.size a
  hwx5_2 : ∀ i : grid5.Coords, EltTy.bits .f32 = 32 ∨ (Rect.block (s := S32x1) S32x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x6.size a ≤ S128x6.size a
  hwx5_3 : ∀ i : grid5.Coords, EltTy.bits .f32 = 32 ∨ (Rect.block (s := S128x6) S128x6.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S6.size a ≤ S6.size a
  hwx5_4 : ∀ i : grid5.Coords, EltTy.bits .f32 = 32 ∨ (Rect.block (s := S6) S6.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x128.size a ≤ S32x128.size a
  hwx5_5 : ∀ i : grid5.Coords, EltTy.bits .f32 = 32 ∨ (Rect.block (s := S32x128) S32x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S32x6.size a ≤ S32x6.size a
  hwx5_6 : ∀ i : grid5.Coords, EltTy.bits .f32 = 32 ∨ (Rect.block (s := S32x6) S32x6.size (cc5_transform_6 i) (hinb5_6 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S600000x1_S600000x128_1_0_n_n_0_1_1128 : GatherDims S40000x128 S600000x1 S600000x128 where
  offsetDims := [1]
  collapsedSliceDims := [0]
  operandBatchingDims := []
  startIndicesBatchingDims := []
  startIndexMap := [0]
  indexVectorDim := 1
  sliceSizes := ![1, 128]
  wf := gather_S40000x128_S600000x1_S600000x128_1_0_n_n_0_1_1128_wf
def scatter_S40000x128_S600000x1_S600000x128_1_0_0_1 : ScatterDims S40000x128 S600000x1 S600000x128 where
  updateWindowDims := [1]
  insertedWindowDims := [0]
  scatterDimsToOperandDims := [0]
  indexVectorDim := 1
  wf := scatter_S40000x128_S600000x1_S600000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S32x8000_S8000x128_S32x128_1_0_0_1_n_n : DotDims S32x8000 S8000x128 S32x128 where
  lhsContracting := [1]
  rhsContracting := [0]
  lhsNonContracting := [0]
  rhsNonContracting := [1]
  lhsBatch := []
  rhsBatch := []
  wf := dot_S32x8000_S8000x128_S32x128_1_0_0_1_n_n_wf
def dot_S32x128_S128x6_S32x6_1_0_0_1_n_n : DotDims S32x128 S128x6 S32x6 where
  lhsContracting := [1]
  rhsContracting := [0]
  lhsNonContracting := [0]
  rhsNonContracting := [1]
  lhsBatch := []
  rhsBatch := []
  wf := dot_S32x128_S128x6_S32x6_1_0_0_1_n_n_wf

abbrev win0_0 : Pipeline.Window sig grid0 :=
  Pipeline.Window.ofSpec (Memref.whole main_v36) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S8000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S32x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S128x6.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg16) S6.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113_0) S32x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v113_1) S32x6.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun i => !(k5_cond2 i == 1#1) | 6 => fun i => !(k5_cond2 i == 1#1) | ⟨_ + 7, h⟩ => absurd h (Nat.not_lt.2 (Nat.le_add_left _ _))

class Facts : Prop extends Facts₀ where

variable [Facts]
-- ==== ReferenceIdeal.lean ====
abbrev S40000x128 : Shape := ⟨2, ![40000, 128]⟩
abbrev S2x600000 : Shape := ⟨2, ![2, 600000]⟩
abbrev S40000 : Shape := ⟨1, ![40000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x600000 : Shape := ⟨2, ![1, 600000]⟩
abbrev S600000 : Shape := ⟨1, ![600000]⟩
abbrev S640000 : Shape := ⟨1, ![640000]⟩
abbrev S_ : Shape := ⟨0, ![]⟩
abbrev S640000x1 : Shape := ⟨2, ![640000, 1]⟩
abbrev S600000x1 : Shape := ⟨2, ![600000, 1]⟩
abbrev S600000x128 : Shape := ⟨2, ![600000, 128]⟩
abbrev S1x128 : Shape := ⟨2, ![1, 128]⟩
abbrev S640000x128 : Shape := ⟨2, ![640000, 128]⟩
abbrev S32 : Shape := ⟨1, ![32]⟩
abbrev S40000x1 : Shape := ⟨2, ![40000, 1]⟩
abbrev S32x128 : Shape := ⟨2, ![32, 128]⟩
abbrev S32x1 : Shape := ⟨2, ![32, 1]⟩
abbrev S32x6 : Shape := ⟨2, ![32, 6]⟩
abbrev S1x6 : Shape := ⟨2, ![1, 6]⟩

abbrev nBuf : Space → Nat
  | .hbm => 218
  | .vmem => 0
  | .smem => 0
  | _ => 0

abbrev hbmTy0_0 (i : Nat) : BufTy := match i % 128 with
  | 0 => ⟨S40000x128, .f32⟩
  | 1 => ⟨S2x600000, .i32⟩
  | 2 => ⟨S40000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x6, .f32⟩
  | 16 => ⟨S6, .f32⟩
  | 17 => ⟨S1x600000, .i32⟩
  | 18 => ⟨S600000, .i32⟩
  | 19 => ⟨S1x600000, .i32⟩
  | 20 => ⟨S600000, .i32⟩
  | 21 => ⟨S40000, .i32⟩
  | 22 => ⟨S640000, .i32⟩
  | 23 => ⟨S640000, .i32⟩
  | 24 => ⟨S_, .f32⟩
  | 25 => ⟨S640000, .f32⟩
  | 26 => ⟨S_, .f32⟩
  | 27 => ⟨S40000, .f32⟩
  | 28 => ⟨S640000x1, .i32⟩
  | 29 => ⟨S40000, .f32⟩
  | 30 => ⟨S40000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S40000x128, .f32⟩
  | 42 => ⟨S600000x1, .i32⟩
  | 43 => ⟨S40000x128, .f32⟩
  | 44 => ⟨S40000x128, .f32⟩
  | 45 => ⟨S40000x128, .f32⟩
  | 46 => ⟨S40000x128, .f32⟩
  | 47 => ⟨S1x128, .f32⟩
  | 48 => ⟨S40000x128, .f32⟩
  | 49 => ⟨S40000x128, .f32⟩
  | 50 => ⟨S_, .f32⟩
  | 51 => ⟨S40000x128, .f32⟩
  | 52 => ⟨S40000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S40000x128, .f32⟩
  | 64 => ⟨S600000x1, .i32⟩
  | 65 => ⟨S40000x128, .f32⟩
  | 66 => ⟨S40000x128, .f32⟩
  | 67 => ⟨S40000x128, .f32⟩
  | 68 => ⟨S40000x128, .f32⟩
  | 69 => ⟨S1x128, .f32⟩
  | 70 => ⟨S40000x128, .f32⟩
  | 71 => ⟨S40000x128, .f32⟩
  | 72 => ⟨S_, .f32⟩
  | 73 => ⟨S40000x128, .f32⟩
  | 74 => ⟨S40000x128, .f32⟩
  | 75 => ⟨S40000x128, .f32⟩
  | 76 => ⟨S_, .i32⟩
  | 77 => ⟨S640000, .i32⟩
  | 78 => ⟨S640000, .i1⟩
  | 79 => ⟨S_, .i32⟩
  | 80 => ⟨S640000, .i32⟩
  | 81 => ⟨S640000, .i32⟩
  | 82 => ⟨S640000, .i32⟩
  | 83 => ⟨S640000x1, .i32⟩
  | 84 => ⟨S640000, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000, .f32⟩
  | 94 => ⟨S640000, .f32⟩
  | 95 => ⟨S_, .i32⟩
  | 96 => ⟨S640000, .i32⟩
  | 97 => ⟨S640000, .i1⟩
  | 98 => ⟨S_, .i32⟩
  | 99 => ⟨S640000, .i32⟩
  | 100 => ⟨S640000, .i32⟩
  | 101 => ⟨S640000, .i32⟩
  | 102 => ⟨S640000x1, .i32⟩
  | 103 => ⟨S640000x128, .f32⟩
  | 104 => ⟨S640000x1, .f32⟩
  | 105 => ⟨S640000x128, .f32⟩
  | 106 => ⟨S640000x128, .f32⟩
  | 107 => ⟨S_, .f32⟩
  | 108 => ⟨S40000x128, .f32⟩
  | 109 => ⟨S640000x1, .i32⟩
  | 110 => ⟨S40000x128, .f32⟩
  | 111 => ⟨S1x128, .f32⟩
  | 112 => ⟨S40000x128, .f32⟩
  | 113 => ⟨S40000x128, .f32⟩
  | 114 => ⟨S_, .f32⟩
  | 115 => ⟨S40000x128, .f32⟩
  | 116 => ⟨S40000x128, .f32⟩
  | 117 => ⟨S40000x128, .f32⟩
  | 118 => ⟨S_, .i32⟩
  | 119 => ⟨S640000, .i32⟩
  | 120 => ⟨S640000, .i1⟩
  | 121 => ⟨S_, .i32⟩
  | 122 => ⟨S640000, .i32⟩
  | 123 => ⟨S640000, .i32⟩
  | 124 => ⟨S640000, .i32⟩
  | 125 => ⟨S640000x1, .i32⟩
  | 126 => ⟨S640000, .f32⟩
  | 127 => ⟨S_, .i32⟩
  | _ => ⟨S40000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000, .f32⟩
  | 8 => ⟨S640000, .f32⟩
  | 9 => ⟨S_, .i32⟩
  | 10 => ⟨S640000, .i32⟩
  | 11 => ⟨S640000, .i1⟩
  | 12 => ⟨S_, .i32⟩
  | 13 => ⟨S640000, .i32⟩
  | 14 => ⟨S640000, .i32⟩
  | 15 => ⟨S640000, .i32⟩
  | 16 => ⟨S640000x1, .i32⟩
  | 17 => ⟨S640000x128, .f32⟩
  | 18 => ⟨S640000x1, .f32⟩
  | 19 => ⟨S640000x128, .f32⟩
  | 20 => ⟨S640000x128, .f32⟩
  | 21 => ⟨S_, .f32⟩
  | 22 => ⟨S40000x128, .f32⟩
  | 23 => ⟨S640000x1, .i32⟩
  | 24 => ⟨S40000x128, .f32⟩
  | 25 => ⟨S1x128, .f32⟩
  | 26 => ⟨S40000x128, .f32⟩
  | 27 => ⟨S40000x128, .f32⟩
  | 28 => ⟨S_, .f32⟩
  | 29 => ⟨S40000x128, .f32⟩
  | 30 => ⟨S40000x128, .f32⟩
  | 31 => ⟨S40000x128, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000, .f32⟩
  | 50 => ⟨S640000, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x1, .f32⟩
  | 61 => ⟨S640000x128, .f32⟩
  | 62 => ⟨S640000x128, .f32⟩
  | 63 => ⟨S_, .f32⟩
  | 64 => ⟨S40000x128, .f32⟩
  | 65 => ⟨S640000x1, .i32⟩
  | 66 => ⟨S40000x128, .f32⟩
  | 67 => ⟨S1x128, .f32⟩
  | 68 => ⟨S40000x128, .f32⟩
  | 69 => ⟨S40000x128, .f32⟩
  | 70 => ⟨S_, .f32⟩
  | 71 => ⟨S40000, .f32⟩
  | 72 => ⟨S_, .f32⟩
  | 73 => ⟨S32, .f32⟩
  | 74 => ⟨S40000x1, .i32⟩
  | 75 => ⟨S32, .f32⟩
  | 76 => ⟨S_, .f32⟩
  | 77 => ⟨S32x128, .f32⟩
  | 78 => ⟨S40000x1, .i32⟩
  | 79 => ⟨S32x128, .f32⟩
  | 80 => ⟨S_, .f32⟩
  | 81 => ⟨S32, .f32⟩
  | 82 => ⟨S32, .f32⟩
  | 83 => ⟨S32x1, .f32⟩
  | 84 => ⟨S32x128, .f32⟩
  | 85 => ⟨S32x128, .f32⟩
  | 86 => ⟨S32x6, .f32⟩
  | 87 => ⟨S1x6, .f32⟩
  | 88 => ⟨S32x6, .f32⟩
  | 89 => ⟨S32x6, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_cst : Ref sig .tc := ⟨.hbm, 50, rfl⟩
abbrev main_call0_v0 : Ref sig .tc := ⟨.hbm, 51, rfl⟩
abbrev main_v28 : Ref sig .tc := ⟨.hbm, 52, rfl⟩
abbrev main_c_3 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call1_cst : Ref sig .tc := ⟨.hbm, 72, rfl⟩
abbrev main_call1_v0 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_c_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_8 : Ref sig .tc := ⟨.hbm, 85, rfl⟩
abbrev main_v54 : Ref sig .tc := ⟨.hbm, 86, rfl⟩
abbrev main_v55 : Ref sig .tc := ⟨.hbm, 87, rfl⟩
abbrev main_c_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_10 : Ref sig .tc := ⟨.hbm, 95, rfl⟩
abbrev main_v62 : Ref sig .tc := ⟨.hbm, 96, rfl⟩
abbrev main_v63 : Ref sig .tc := ⟨.hbm, 97, rfl⟩
abbrev main_c_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call2_cst : Ref sig .tc := ⟨.hbm, 114, rfl⟩
abbrev main_call2_v0 : Ref sig .tc := ⟨.hbm, 115, rfl⟩
abbrev main_v78 : Ref sig .tc := ⟨.hbm, 116, rfl⟩
abbrev main_v79 : Ref sig .tc := ⟨.hbm, 117, rfl⟩
abbrev main_c_13 : Ref sig .tc := ⟨.hbm, 118, rfl⟩
abbrev main_v80 : Ref sig .tc := ⟨.hbm, 119, rfl⟩
abbrev main_v81 : Ref sig .tc := ⟨.hbm, 120, rfl⟩
abbrev main_c_14 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_15 : Ref sig .tc := ⟨.hbm, 127, rfl⟩
abbrev main_v87 : Ref sig .tc := ⟨.hbm, 128, rfl⟩
abbrev main_v88 : Ref sig .tc := ⟨.hbm, 129, rfl⟩
abbrev main_c_16 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_17 : Ref sig .tc := ⟨.hbm, 137, rfl⟩
abbrev main_v95 : Ref sig .tc := ⟨.hbm, 138, rfl⟩
abbrev main_v96 : Ref sig .tc := ⟨.hbm, 139, rfl⟩
abbrev main_c_18 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_call3_cst : Ref sig .tc := ⟨.hbm, 156, rfl⟩
abbrev main_call3_v0 : Ref sig .tc := ⟨.hbm, 157, rfl⟩
abbrev main_v111 : Ref sig .tc := ⟨.hbm, 158, rfl⟩
abbrev main_v112 : Ref sig .tc := ⟨.hbm, 159, rfl⟩
abbrev main_c_20 : Ref sig .tc := ⟨.hbm, 160, rfl⟩
abbrev main_v113 : Ref sig .tc := ⟨.hbm, 161, rfl⟩
abbrev main_v114 : Ref sig .tc := ⟨.hbm, 162, rfl⟩
abbrev main_c_21 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_22 : Ref sig .tc := ⟨.hbm, 169, rfl⟩
abbrev main_v120 : Ref sig .tc := ⟨.hbm, 170, rfl⟩
abbrev main_v121 : Ref sig .tc := ⟨.hbm, 171, rfl⟩
abbrev main_c_23 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_24 : Ref sig .tc := ⟨.hbm, 179, rfl⟩
abbrev main_v128 : Ref sig .tc := ⟨.hbm, 180, rfl⟩
abbrev main_v129 : Ref sig .tc := ⟨.hbm, 181, rfl⟩
abbrev main_c_25 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_26 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_27 : Ref sig .tc := ⟨.hbm, 198, rfl⟩
abbrev main_v144 : Ref sig .tc := ⟨.hbm, 199, rfl⟩
abbrev main_cst_28 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_29 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_30 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S40000_S640000_d0 : Shape.Concatenates [S600000, S40000] S640000 0
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S640000x1_S640000x128_0_1 : S640000x1.BroadcastsInDim S640000x128 (![0, 1] : Fin 2 → Fin S640000x128.rank)
  bcast_S_S32 : S_.BroadcastsInDim S32 (![] : Fin 0 → Fin S32.rank)
  bcast_S40000_S40000x1_0 : S40000.BroadcastsInDim S40000x1 (![0] : Fin 1 → Fin S40000x1.rank)
  bcast_S_S32x128 : S_.BroadcastsInDim S32x128 (![] : Fin 0 → Fin S32x128.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S6_S1x6_1 : S6.BroadcastsInDim S1x6 (![1] : Fin 1 → Fin S1x6.rank)
  bcast_S1x6_S32x6_0_1 : S1x6.BroadcastsInDim S32x6 (![0, 1] : Fin 2 → Fin S32x6.rank)
  scatter_S40000_S640000x1_S640000_n_0_0_1_wf : ScatterDims.WF S40000 S640000x1 S640000 [] [0] [0] 1
  gather_S40000x128_S600000x1_S600000x128_1_0_n_n_0_1_1128_wf : GatherDims.WF S40000x128 S600000x1 S600000x128 [1] [0] [] [0] [] 1 ![1, 128]
  scatter_S40000x128_S600000x1_S600000x128_1_0_0_1_wf : ScatterDims.WF S40000x128 S600000x1 S600000x128 [1] [0] [0] 1
  dot_S40000x128_S128x128_S40000x128_1_0_0_1_n_n_wf : DotDims.WF S40000x128 S128x128 S40000x128 [1] [0] [0] [1] [] []
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S32_S40000x1_S40000_n_0_0_1_wf : ScatterDims.WF S32 S40000x1 S40000 [] [0] [0] 1
  scatter_S32x128_S40000x1_S40000x128_1_0_0_1_wf : ScatterDims.WF S32x128 S40000x1 S40000x128 [1] [0] [0] 1
  dot_S32x128_S128x6_S32x6_1_0_0_1_n_n_wf : DotDims.WF S32x128 S128x6 S32x6 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S600000x1_S600000x128_1_0_n_n_0_1_1128 : GatherDims S40000x128 S600000x1 S600000x128 where
  offsetDims := [1]
  collapsedSliceDims := [0]
  operandBatchingDims := []
  startIndicesBatchingDims := []
  startIndexMap := [0]
  indexVectorDim := 1
  sliceSizes := ![1, 128]
  wf := gather_S40000x128_S600000x1_S600000x128_1_0_n_n_0_1_1128_wf
def scatter_S40000x128_S600000x1_S600000x128_1_0_0_1 : ScatterDims S40000x128 S600000x1 S600000x128 where
  updateWindowDims := [1]
  insertedWindowDims := [0]
  scatterDimsToOperandDims := [0]
  indexVectorDim := 1
  wf := scatter_S40000x128_S600000x1_S600000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S32_S40000x1_S40000_n_0_0_1 : ScatterDims S32 S40000x1 S40000 where
  updateWindowDims := []
  insertedWindowDims := [0]
  scatterDimsToOperandDims := [0]
  indexVectorDim := 1
  wf := scatter_S32_S40000x1_S40000_n_0_0_1_wf
def scatter_S32x128_S40000x1_S40000x128_1_0_0_1 : ScatterDims S32x128 S40000x1 S40000x128 where
  updateWindowDims := [1]
  insertedWindowDims := [0]
  scatterDimsToOperandDims := [0]
  indexVectorDim := 1
  wf := scatter_S32x128_S40000x1_S40000x128_1_0_0_1_wf
def dot_S32x128_S128x6_S32x6_1_0_0_1_n_n : DotDims S32x128 S128x6 S32x6 where
  lhsContracting := [1]
  rhsContracting := [0]
  lhsNonContracting := [0]
  rhsNonContracting := [1]
  lhsBatch := []
  rhsBatch := []
  wf := dot_S32x128_S128x6_S32x6_1_0_0_1_n_n_wf

class Facts : Prop extends Facts₀ where

variable [Facts]
-- ==== Proof.KI.Reg0.lean ====
import proofs.«415776_j70411693851060_1_alg».proof.Proof.Gen.KernelIdeal.Launch
import proofs.«415776_j70411693851060_1_alg».proof.Proof.Gen.KernelIdeal.Skeleton
import proofs.«415776_j70411693851060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array at the contents V the region is entered with.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rows0 : Rect S8000x128 := Rect.unit (s := S8000x128) ![0, 0] S8000x128.size inb_S8000x128_S8000x128_0_0
abbrev wts0 : Rect S128x128 := Rect.unit (s := S128x128) ![0, 0] S128x128.size inb_S128x128_S128x128_0_0
abbrev bias0 : Rect S128 := Rect.unit (s := S128) ![0] S128.size inb_S128_S128_0

-- What the body leaves in the output block: max(agg · W_rel + x · W_root + bias, 0), stored whole.
def conv0 (agg x : Vec F S8000x128 .f32) (wrel wroot : Vec F S128x128 .f32) (b : Vec F S128 .f32) : Vec F S8000x128 .f32 :=
  View.canon [⟨rows0, k0_pay1 (View.ld agg rows0) (View.ld x rows0) (View.ld wrel wts0) (View.ld wroot wts0) (View.ld b bias0)⟩]

theorem conv0_cover (p0 : Vec F S8000x128 .f32) (y : S8000x128.Idx) :
    ∃ pc ∈ ([⟨rows0, p0⟩] : List (View.Piece (Elt F) S8000x128 .f32)), y ∈ pc.1.set :=
  View.cover_of_tiled [⟨rows0, p0⟩] S8000x128.size (by rfl) y

set_option maxHeartbeats 4000000 in

-- The body leaves its five inputs as found and the layer of them in the output block.
theorem sound_kernel0 (c : Dev nD) (E : Set ℕ) (i : grid0.Coords)
    (arg1 : Memref sig .tc .vmem S8000x128 .f32) (harg1 : arg1.IsWhole) (arg2 : Memref sig .tc .vmem S8000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S8000x128 .f32) (harg6 : arg6.IsWhole)
    (agg x : Vec F S8000x128 .f32) (wrel wroot : Vec F S128x128 .f32) (b : Vec F S128 .f32) (K : PUnit → sProp 𝕄) :
    iprop(owns (c : Thread nD τ) arg1 fullShare agg ∗ owns (c : Thread nD τ) arg2 fullShare x ∗ owns (c : Thread nD τ) arg3 fullShare wrel
        ∗ owns (c : Thread nD τ) arg4 fullShare wroot ∗ owns (c : Thread nD τ) arg5 fullShare b ∗ (∃ d, owns (c : Thread nD τ) arg6 fullShare d)
        ∗ (iprop(owns (c : Thread nD τ) arg1 fullShare agg ∗ owns (c : Thread nD τ) arg2 fullShare x ∗ owns (c : Thread nD τ) arg3 fullShare wrel
            ∗ owns (c : Thread nD τ) arg4 fullShare wroot ∗ owns (c : Thread nD τ) arg5 fullShare b
            ∗ owns (c : Thread nD τ) arg6 fullShare (conv0 agg x wrel wroot b)) -∗ K ⟨⟩))
      ⊢ wp frame (wpE (defs₀ (F := F)) Variants.none c none) E (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (conv0_cover _)

-- The region at entry contents V: every input window keeps its block, the output block is the layer of the input blocks.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => conv0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = conv0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg1.lean ====
/-
  Region 1 of the program: one graph-convolution layer on a block of 8000 node rows. At a grid point the body
  reads the block of aggregated neighbour rows, the block of the nodes' own rows, the two 128 x 128 weight matrices
  and the bias row, forms  max(agg · W_rel + x · W_root + bias, 0)  and stores it over the whole output block.
  Stated at the contents `V` the region is entered with: the block each window holds at a point, what the body
  leaves in each staging buffer, the body's triple, and the obligation the launch asks for at every point.
-/
import proofs.«415776_j70411693851060_1_alg».proof.Proof.Gen.KernelIdeal.Launch
import proofs.«415776_j70411693851060_1_alg».proof.Proof.Gen.KernelIdeal.Skeleton
import proofs.«415776_j70411693851060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: a window that is not
    fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 8000 x 128 block, the whole 128 x 128 matrix and the whole bias row as rectangles. -/
abbrev rows1 : Rect S8000x128 := Rect.unit (s := S8000x128) ![0, 0] S8000x128.size inb_S8000x128_S8000x128_0_0
abbrev wts1 : Rect S128x128 := Rect.unit (s := S128x128) ![0, 0] S128x128.size inb_S128x128_S128x128_0_0
abbrev bias1 : Rect S128 := Rect.unit (s := S128) ![0] S128.size inb_S128_S128_0

/-- What the body leaves in the output block: the layer's value on the row blocks, stored whole. -/
def conv1 (agg x : Vec F S8000x128 .f32) (wrel wroot : Vec F S128x128 .f32) (b : Vec F S128 .f32) : Vec F S8000x128 .f32 :=
  View.canon [⟨rows1, k1_pay1 (View.ld agg rows1) (View.ld x rows1) (View.ld wrel wts1) (View.ld wroot wts1) (View.ld b bias1)⟩]

theorem conv1_cover (p0 : Vec F S8000x128 .f32) (y : S8000x128.Idx) :
    ∃ pc ∈ ([⟨rows1, p0⟩] : List (View.Piece (Elt F) S8000x128 .f32)), y ∈ pc.1.set :=
  View.cover_of_tiled [⟨rows1, p0⟩] S8000x128.size (by rfl) y

set_option maxHeartbeats 4000000 in
/-- The body on whole staging buffers: the five inputs are left as found, the output block ends at the layer's value. -/
theorem sound_kernel1 (c : Dev nD) (E : Set ℕ) (i : grid1.Coords)
    (arg1 : Memref sig .tc .vmem S8000x128 .f32) (harg1 : arg1.IsWhole) (arg2 : Memref sig .tc .vmem S8000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S8000x128 .f32) (harg6 : arg6.IsWhole)
    (agg x : Vec F S8000x128 .f32) (wrel wroot : Vec F S128x128 .f32) (b : Vec F S128 .f32) (K : PUnit → sProp 𝕄) :
    iprop(owns (c : Thread nD τ) arg1 fullShare agg ∗ owns (c : Thread nD τ) arg2 fullShare x ∗ owns (c : Thread nD τ) arg3 fullShare wrel
        ∗ owns (c : Thread nD τ) arg4 fullShare wroot ∗ owns (c : Thread nD τ) arg5 fullShare b ∗ (∃ d, owns (c : Thread nD τ) arg6 fullShare d)
        ∗ (iprop(owns (c : Thread nD τ) arg1 fullShare agg ∗ owns (c : Thread nD τ) arg2 fullShare x ∗ owns (c : Thread nD τ) arg3 fullShare wrel
            ∗ owns (c : Thread nD τ) arg4 fullShare wroot ∗ owns (c : Thread nD τ) arg5 fullShare b
            ∗ owns (c : Thread nD τ) arg6 fullShare (conv1 agg x wrel wroot b)) -∗ K ⟨⟩))
      ⊢ wp frame (wpE (defs₀ (F := F)) Variants.none c none) E (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (conv1_cover _)

/-- The proof data of region 1 on core `c` at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => conv1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = conv1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Reg2.lean ====
import proofs.«415776_j70411693851060_1_alg».proof.Proof.Gen.KernelIdeal.Launch
import proofs.«415776_j70411693851060_1_alg».proof.Proof.Gen.KernelIdeal.Skeleton
import proofs.«415776_j70411693851060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array at the contents V the region is entered with.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rows2 : Rect S8000x128 := Rect.unit (s := S8000x128) ![0, 0] S8000x128.size inb_S8000x128_S8000x128_0_0

abbrev wts2 : Rect S128x128 := Rect.unit (s := S128x128) ![0, 0] S128x128.size inb_S128x128_S128x128_0_0

-- What the body leaves in the output block: the row block times the weight matrix, stored whole.
def prod2 (x : Vec F S8000x128 .f32) (w : Vec F S128x128 .f32) : Vec F S8000x128 .f32 :=
  View.canon [⟨rows2, k2_pay1 (View.ld x rows2) (View.ld w wts2)⟩]

theorem prod2_cover (p0 : Vec F S8000x128 .f32) (y : S8000x128.Idx) :
    ∃ pc ∈ ([⟨rows2, p0⟩] : List (View.Piece (Elt F) S8000x128 .f32)), y ∈ pc.1.set :=
  View.cover_of_tiled [⟨rows2, p0⟩] S8000x128.size (by rfl) y

set_option maxHeartbeats 4000000 in

-- The body leaves its two inputs as found and their product in the output block.
theorem sound_kernel2 (c : Dev nD) (E : Set ℕ) (i : grid2.Coords)
    (arg1 : Memref sig .tc .vmem S8000x128 .f32) (harg1 : arg1.IsWhole) (arg2 : Memref sig .tc .vmem S128x128 .f32) (harg2 : arg2.IsWhole)
    (arg3 : Memref sig .tc .vmem S8000x128 .f32) (harg3 : arg3.IsWhole)
    (x : Vec F S8000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod2 x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod2_cover _)

-- The region at entry contents V: the inputs keep their blocks, the output block is the product of the input blocks.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => prod2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = prod2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Reg3.lean ====
import proofs.«415776_j70411693851060_1_alg».proof.Proof.KI.Reg2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Regions 2, 3 and 4 run one body: the product of a row block and a weight matrix.
theorem cc3_eq : cc3__matmul_kernel (F := F) = cc2__matmul_kernel (F := F) := rfl

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

-- This region at entry contents V; its output block is that product of its own input blocks.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => prod2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = prod2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel2 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Reg4.lean ====
import proofs.«415776_j70411693851060_1_alg».proof.Proof.KI.Reg2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Regions 2, 3 and 4 run one body: the product of a row block and a weight matrix.
theorem cc4_eq : cc4__matmul_kernel (F := F) = cc2__matmul_kernel (F := F) := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

-- This region at entry contents V; its output block is that product of its own input blocks.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => prod2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = prod2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel2 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KI.Reg5.lean ====
import proofs.«415776_j70411693851060_1_alg».proof.Proof.Gen.KernelIdeal.Launch
import proofs.«415776_j70411693851060_1_alg».proof.Proof.Gen.KernelIdeal.Skeleton
import proofs.«415776_j70411693851060_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

-- The running 32 x 128 sum after point n: each point adds its block's (one-hot)ᵀ · features, the first onto zero.
def acc5 (c : Dev nD) : (n : ℕ) → n < cfg5.N → Vec F S32x128 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩) (acc5 c n (Nat.lt_of_succ_lt hn))

abbrev last5 : Fin cfg5.N := ⟨4, lt_of_lt_of_eq (by decide : 4 < 5) N_5.symm⟩

-- The pooled rows and the classifier's logits, both formed from the full sum at the last point.
def emb5 (c : Dev nD) : Vec F S32x128 .f32 :=
  k5_pay3 (acc5 V c 4 last5.isLt) (iblk5 V c 2 last5)

def logits5 (c : Dev nD) : Vec F S32x6 .f32 :=
  k5_pay4 (acc5 V c 4 last5.isLt) (iblk5 V c 2 last5) (iblk5 V c 3 last5) (iblk5 V c 4 last5)

abbrev scr5 : Memref sig .tc .vmem S32x128 .f32 := Memref.whole cc5_scratch0

-- The invariant between points: the accumulator holds the running sum (before the first point, anything).
def Phi5 (c : Dev nD) : (n : ℕ) → n ≤ cfg5.N → sProp 𝕄
  | 0, _ => Pipeline.ΦA spec5 c
  | n + 1, hn => iprop(owns (c : Thread nD τ) scr5 fullShare (acc5 V c n hn)
      ∗ Pipeline.scopedRestBut (Ix := Unit) (Name := ℕ) (U := UR sig nD τ) (Lvl := ℕ) (Val := Elt F) spec5 c [cc5_scratch0]
      ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => emb5 V c
    | ⟨6, _⟩ => logits5 V c
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = emb5 V c := by dsimp only [dat5]
theorem after5_6 (c : Dev nD) (t : Fin cfg5.N) : (dat5 V c).after 6 t = logits5 V c := by dsimp only [dat5]
theorem after5_5_last (c : Dev nD) (t : Fin cfg5.N) (h : t.val = 4) : (dat5 V c).after 5 t = emb5 V c := after5_5 V c t
theorem after5_6_last (c : Dev nD) (t : Fin cfg5.N) (h : t.val = 4) : (dat5 V c).after 6 t = logits5 V c := after5_6 V c t

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

theorem acc5_zero (c : Dev nD) (t : Fin cfg5.N) (h : t.val = 0) :
    acc5 V c t.val t.isLt = k5_pay2 (iblk5 V c 0 t) (iblk5 V c 1 t) (k5_pay1 (F := F)) := by
  obtain ⟨n, hn⟩ := t
  cases n with
  | zero => rfl
  | succ n => exact absurd h (Nat.succ_ne_zero n)

theorem acc5_pos (c : Dev nD) (t : Fin cfg5.N) (h : t.val ≠ 0) :
    acc5 V c t.val t.isLt = k5_pay2 (iblk5 V c 0 t) (iblk5 V c 1 t) (acc5 V c (t.val - 1) (Nat.lt_of_le_of_lt (Nat.sub_le _ _) t.isLt)) := by
  obtain ⟨n, hn⟩ := t
  cases n with
  | zero => exact absurd rfl h
  | succ n => rfl

theorem emb5_eq (c : Dev nD) (t : Fin cfg5.N) (h : t.val = 4) :
    emb5 V c = k5_pay3 (acc5 V c t.val t.isLt) (iblk5 V c 2 t) := by
  obtain rfl : t = last5 := Fin.ext h
  rfl
theorem logits5_eq (c : Dev nD) (t : Fin cfg5.N) (h : t.val = 4) :
    logits5 V c = k5_pay4 (acc5 V c t.val t.isLt) (iblk5 V c 2 t) (iblk5 V c 3 t) (iblk5 V c 4 t) := by
  obtain rfl : t = last5 := Fin.ext h
  rfl

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(owns (c : Thread nD τ) scr5 fullShare (acc5 V c n hn)
      ∗ Pipeline.scopedRestBut (Ix := Unit) (Name := ℕ) (U := UR sig nD τ) (Lvl := ℕ) (Val := Elt F) spec5 c [cc5_scratch0]
      ∗ ∃ r, prngReg c r) := rfl

theorem Phi5_pos (c : Dev nD) (n : ℕ) (h : n ≤ cfg5.N) (hz : n ≠ 0) :
    Phi5 V c n h = iprop(owns (c : Thread nD τ) scr5 fullShare (acc5 V c (n - 1) (by omega))
      ∗ Pipeline.scopedRestBut (Ix := Unit) (Name := ℕ) (U := UR sig nD τ) (Lvl := ℕ) (Val := Elt F) spec5 c [cc5_scratch0]
      ∗ ∃ r, prngReg c r) := by
  cases n with
  | zero => exact absurd rfl hz
  | succ n => rfl

theorem Phi5_castSucc (c : Dev nD) (t : Fin cfg5.N) :
    (dat5 V c).Φ t.castSucc = Phi5 V c t.val (Nat.le_of_lt t.isLt) := by
  dsimp only [dat5]; simp only [Fin.coe_castSucc]

theorem PhiA5_eq (c : Dev nD) :
    (Pipeline.ΦA spec5 c : sProp 𝕄)
      = iprop(iprop(iprop(∃ d, owns (c : Thread nD τ) scr5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scr5, owns_whole]; try rfl

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 5 = 0 :=
  (by decide +kernel : ∀ t : Fin grid5.N, cond5_0 (grid5.coords t) ↔ t.val % 5 = 0)

abbrev cond5_1 (i : grid5.Coords) : Prop := k5_cond2 i = 1#1

theorem hcond5_1 : ∀ t : Fin cfg5.N, cond5_1 (grid5.coords t) ↔ t.val % 5 = 4 :=
  (by decide +kernel : ∀ t : Fin grid5.N, cond5_1 (grid5.coords t) ↔ t.val % 5 = 4)

theorem idleAt5_5 : ∀ t : Fin cfg5.N, ¬cond5_1 (grid5.coords t) → cfg5.idle 5 (grid5.coords t) = true := by decide +kernel
theorem noFlush5_5 : ∀ t : Fin cfg5.N, ¬cond5_1 (grid5.coords t) → (cfg5.win 5).flush t = false := by decide +kernel
theorem liveAt5_5 : ∀ t : Fin cfg5.N, cond5_1 (grid5.coords t) → cfg5.idle 5 (grid5.coords t) = false := by decide +kernel
theorem idleAt5_6 : ∀ t : Fin cfg5.N, ¬cond5_1 (grid5.coords t) → cfg5.idle 6 (grid5.coords t) = true := by decide +kernel
theorem noFlush5_6 : ∀ t : Fin cfg5.N, ¬cond5_1 (grid5.coords t) → (cfg5.win 6).flush t = false := by decide +kernel
theorem liveAt5_6 : ∀ t : Fin cfg5.N, cond5_1 (grid5.coords t) → cfg5.idle 6 (grid5.coords t) = false := by decide +kernel

theorem zeros5_2 : (![0, 0] : Fin 2 → ℕ) = fun _ => 0 := by funext a; fin_cases a <;> rfl
theorem zeros5_1 : (![0] : Fin 1 → ℕ) = fun _ => 0 := by funext a; fin_cases a; rfl

theorem read_writes_unit5 {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

set_option maxHeartbeats 4000000 in

-- The body at the first point (zero the sum, add the block), at a middle point (add the block) and at the last point (add, then divide and classify).
theorem sound_kernel5_first (c : Dev nD) (E : Set ℕ) (i : grid5.Coords) (hc0 : cond5_0 i) (hc1 : ¬cond5_1 i)
    (arg1 : Memref sig .tc .vmem S8000x32 .f32) (harg1 : arg1.IsWhole) (arg2 : Memref sig .tc .vmem S8000x128 .f32) (harg2 : arg2.IsWhole)
    (arg3 : Memref sig .tc .vmem S32x1 .f32) (harg3 : arg3.IsWhole) (arg4 : Memref sig .tc .vmem S128x6 .f32) (harg4 : arg4.IsWhole)
    (arg5 : Memref sig .tc .vmem S6 .f32) (harg5 : arg5.IsWhole) (arg6 : Memref sig .tc .vmem S32x128 .f32) (harg6 : arg6.IsWhole)
    (arg7 : Memref sig .tc .vmem S32x6 .f32) (harg7 : arg7.IsWhole) (arg8 : Memref sig .tc .vmem S32x128 .f32) (harg8 : arg8.IsWhole)
    (x0 : Vec F S8000x32 .f32) (x1 : Vec F S8000x128 .f32) (x2 : Vec F S32x1 .f32) (x3 : Vec F S128x6 .f32) (x4 : Vec F S6 .f32)
    (x5 : Vec F S32x128 .f32) (x6 : Vec F S32x6 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare x5 ∗ owns (c : Thread nD τ) arg7 fullShare x6
            ∗ owns (c : Thread nD τ) arg8 fullShare (k5_pay2 x0 x1 (k5_pay1 (F := F)))) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_run_names
  rw [read_writes_unit5 (S := S32x128) _ _ zeros5_2]
  simp only [View.readAt_eq_ld, View.ld_unit_zero (S := S8000x32) zeros5_2, View.ld_unit_zero (S := S8000x128) zeros5_2, View.ld_unit_zero (S := S32x128) zeros5_2,
    View.ld_unit_zero (S := S32x1) zeros5_2, View.ld_unit_zero (S := S128x6) zeros5_2, View.ld_unit_zero (S := S6) zeros5_1, View.readCov_unit_zero (S := S32x128) _ zeros5_2]

set_option maxHeartbeats 4000000 in

theorem sound_kernel5_mid (c : Dev nD) (E : Set ℕ) (i : grid5.Coords) (hc0 : ¬cond5_0 i) (hc1 : ¬cond5_1 i)
    (arg1 : Memref sig .tc .vmem S8000x32 .f32) (harg1 : arg1.IsWhole) (arg2 : Memref sig .tc .vmem S8000x128 .f32) (harg2 : arg2.IsWhole)
    (arg3 : Memref sig .tc .vmem S32x1 .f32) (harg3 : arg3.IsWhole) (arg4 : Memref sig .tc .vmem S128x6 .f32) (harg4 : arg4.IsWhole)
    (arg5 : Memref sig .tc .vmem S6 .f32) (harg5 : arg5.IsWhole) (arg6 : Memref sig .tc .vmem S32x128 .f32) (harg6 : arg6.IsWhole)
    (arg7 : Memref sig .tc .vmem S32x6 .f32) (harg7 : arg7.IsWhole) (arg8 : Memref sig .tc .vmem S32x128 .f32) (harg8 : arg8.IsWhole)
    (x0 : Vec F S8000x32 .f32) (x1 : Vec F S8000x128 .f32) (x2 : Vec F S32x1 .f32) (x3 : Vec F S128x6 .f32) (x4 : Vec F S6 .f32)
    (x5 : Vec F S32x128 .f32) (x6 : Vec F S32x6 .f32) (a : Vec F S32x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare x5 ∗ owns (c : Thread nD τ) arg7 fullShare x6
        ∗ owns (c : Thread nD τ) arg8 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare x5 ∗ owns (c : Thread nD τ) arg7 fullShare x6
            ∗ owns (c : Thread nD τ) arg8 fullShare (k5_pay2 x0 x1 a)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf0; subst hf1; subst hf2; subst hf3; subst hf4; subst hf5; subst hf6; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  sl_unfold_run_names
  rw [read_writes_unit5 (S := S32x128) _ _ zeros5_2]
  simp only [View.readAt_eq_ld, View.ld_unit_zero (S := S8000x32) zeros5_2, View.ld_unit_zero (S := S8000x128) zeros5_2, View.ld_unit_zero (S := S32x128) zeros5_2,
    View.ld_unit_zero (S := S32x1) zeros5_2, View.ld_unit_zero (S := S128x6) zeros5_2, View.ld_unit_zero (S := S6) zeros5_1, View.readCov_unit_zero (S := S32x128) _ zeros5_2]

set_option maxHeartbeats 4000000 in

theorem sound_kernel5_last (c : Dev nD) (E : Set ℕ) (i : grid5.Coords) (hc0 : ¬cond5_0 i) (hc1 : cond5_1 i)
    (arg1 : Memref sig .tc .vmem S8000x32 .f32) (harg1 : arg1.IsWhole) (arg2 : Memref sig .tc .vmem S8000x128 .f32) (harg2 : arg2.IsWhole)
    (arg3 : Memref sig .tc .vmem S32x1 .f32) (harg3 : arg3.IsWhole) (arg4 : Memref sig .tc .vmem S128x6 .f32) (harg4 : arg4.IsWhole)
    (arg5 : Memref sig .tc .vmem S6 .f32) (harg5 : arg5.IsWhole) (arg6 : Memref sig .tc .vmem S32x128 .f32) (harg6 : arg6.IsWhole)
    (arg7 : Memref sig .tc .vmem S32x6 .f32) (harg7 : arg7.IsWhole) (arg8 : Memref sig .tc .vmem S32x128 .f32) (harg8 : arg8.IsWhole)
    (x0 : Vec F S8000x32 .f32) (x1 : Vec F S8000x128 .f32) (x2 : Vec F S32x1 .f32) (x3 : Vec F S128x6 .f32) (x4 : Vec F S6 .f32)
    (a : Vec F S32x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k5_pay3 (k5_pay2 x0 x1 a) x2)
            ∗ owns (c : Thread nD τ) arg7 fullShare (k5_pay4 (k5_pay2 x0 x1 a) x2 x3 x4)
            ∗ owns (c : Thread nD τ) arg8 fullShare (k5_pay2 x0 x1 a)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f8, %hf8, H8⟩, Hk⟩
  subst hf0; subst hf1; subst hf2; subst hf3; subst hf4; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_unit5 (S := S32x128) _ _ zeros5_2]
    simp only [View.readAt_eq_ld, View.ld_unit_zero (S := S8000x32) zeros5_2, View.ld_unit_zero (S := S8000x128) zeros5_2, View.ld_unit_zero (S := S32x128) zeros5_2,
      View.ld_unit_zero (S := S32x1) zeros5_2, View.ld_unit_zero (S := S128x6) zeros5_2, View.ld_unit_zero (S := S6) zeros5_1, View.readCov_unit_zero (S := S32x128) _ zeros5_2]
  isplitl [H6]
  · iexists _; isplitr
    swap; · iexact H6
    ipureintro
    sl_unfold_run_names
    rw [read_writes_unit5 (S := S32x6) _ _ zeros5_2]
    simp only [View.readAt_eq_ld, View.ld_unit_zero (S := S8000x32) zeros5_2, View.ld_unit_zero (S := S8000x128) zeros5_2, View.ld_unit_zero (S := S32x128) zeros5_2,
      View.ld_unit_zero (S := S32x1) zeros5_2, View.ld_unit_zero (S := S128x6) zeros5_2, View.ld_unit_zero (S := S6) zeros5_1, View.readCov_unit_zero (S := S32x128) _ zeros5_2]
  iexists _; isplitr
  swap; · iexact H8
  ipureintro
  sl_unfold_run_names
  rw [read_writes_unit5 (S := S32x128) _ _ zeros5_2]
  simp only [View.readAt_eq_ld, View.ld_unit_zero (S := S8000x32) zeros5_2, View.ld_unit_zero (S := S8000x128) zeros5_2, View.ld_unit_zero (S := S32x128) zeros5_2,
    View.ld_unit_zero (S := S32x1) zeros5_2, View.ld_unit_zero (S := S128x6) zeros5_2, View.ld_unit_zero (S := S6) zeros5_1, View.readCov_unit_zero (S := S32x128) _ zeros5_2]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ (dat5 V c).leavesExact 5 t
    ∗ (dat5 V c).leavesExact 6 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = Phi5 V c (t.val + 1) t.isLt from rfl, Phi5_succ]
  rw [after5_0, after5_1, after5_2, after5_3, after5_4]
  have hN : t.val < 5 := lt_of_lt_of_eq t.isLt (show cfg5.N = 5 from N_5)
  by_cases h1 : t.val % 5 = 4
  ·
    have h0 : ¬t.val % 5 = 0 := by omega
    have hz : t.val ≠ 0 := by omega
    have h4 : t.val = 4 := by omega
    rw [show (dat5 V c).leavesExact 5 t = owns (c : Thread nD τ) (st5_5 t) fullShare ((dat5 V c).after 5 t) from by
      unfold Dat.leavesExact; rw [liveAt5_5 t ((hcond5_1 t).mpr h1)], after5_5, emb5_eq V c t h4]
    rw [show (dat5 V c).leavesExact 6 t = owns (c : Thread nD τ) (st5_6 t) fullShare ((dat5 V c).after 6 t) from by
      unfold Dat.leavesExact; rw [liveAt5_6 t ((hcond5_1 t).mpr h1)], after5_6, logits5_eq V c t h4]
    rw [acc5_pos V c t hz, Phi5_castSucc V c t, Phi5_pos V c _ _ hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
    iapply (sound_kernel5_last c Set.univ _ (fun h => h0 ((hcond5_0 t).mp h)) ((hcond5_1 t).mpr h1) _ _ _ _ _ _ _ _ _ _ _ _ _ _ _ _
      (iblk5 V c 0 t) (iblk5 V c 1 t) (iblk5 V c 2 t) (iblk5 V c 3 t) (iblk5 V c 4 t) (acc5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat5 V c) 5 t (idleAt5_5 t (fun h => h1 ((hcond5_1 t).mp h))) (noFlush5_5 t (fun h => h1 ((hcond5_1 t).mp h)))]
    rw [Dat.leavesExact_idle (dat5 V c) 6 t (idleAt5_6 t (fun h => h1 ((hcond5_1 t).mp h))) (noFlush5_6 t (fun h => h1 ((hcond5_1 t).mp h)))]
    by_cases h0 : t.val % 5 = 0
    ·
      have hz : t.val = 0 := by omega
      rw [acc5_zero V c t hz, Phi5_castSucc V c t, Phi5_zero V c _ _ hz, PhiA5_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel5_first c Set.univ _ ((hcond5_0 t).mpr h0) (fun h => h1 ((hcond5_1 t).mp h)) _ _ _ _ _ _ _ _ _ _ _ _ _ _ _ _
        (iblk5 V c 0 t) (iblk5 V c 1 t) (iblk5 V c 2 t) (iblk5 V c 3 t) (iblk5 V c 4 t) ((dat5 V c).before 5 t d5) ((dat5 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    ·
      have hz : t.val ≠ 0 := by omega
      rw [acc5_pos V c t hz, Phi5_castSucc V c t, Phi5_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (sound_kernel5_mid c Set.univ _ (fun h => h0 ((hcond5_0 t).mp h)) (fun h => h1 ((hcond5_1 t).mp h)) _ _ _ _ _ _ _ _ _ _ _ _ _ _ _ _
        (iblk5 V c 0 t) (iblk5 V c 1 t) (iblk5 V c 2 t) (iblk5 V c 3 t) (iblk5 V c 4 t) ((dat5 V c).before 5 t d5) ((dat5 V c).before 6 t d6) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = Phi5 V c 0 (Nat.zero_le _) from rfl, Phi5_zero V c 0 _ rfl]

theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨HS, HR, Hg⟩
  isplitl [HS HR]
  · isplitl [HS]
    · iexists _; iexact HS
    iexact HR
  iexact Hg

theorem hout5 (c : Dev nD) : (dat5 V c).Φ (Fin.last cfg5.N) ⊢ Pipeline.ΦA spec5 c :=
  Phi5_out V c _ (by rw [Fin.val_last]; have : cfg5.N = 5 := N_5; omega)

end Cert.KernelIdeal.Frame

end
-- ==== Proof.KI.Run.lean ====
import proofs.«415776_j70411693851060_1_alg».proof.Proof.KI.Reg0
import proofs.«415776_j70411693851060_1_alg».proof.Proof.KI.Reg1
import proofs.«415776_j70411693851060_1_alg».proof.Proof.KI.Reg2
import proofs.«415776_j70411693851060_1_alg».proof.Proof.KI.Reg3
import proofs.«415776_j70411693851060_1_alg».proof.Proof.KI.Reg4
import proofs.«415776_j70411693851060_1_alg».proof.Proof.KI.Reg5
import proofs.«415776_j70411693851060_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Bnd0 : Dev nD → Valuation τ sig (Elt F) := fun c b => (s₀ m ρ).mem ((c : Dev nD), b)

abbrev Bnd1 : Dev nD → Valuation τ sig (Elt F) := fun c => StableHlo.after hostOps0 (Bnd0 m ρ c)
theorem Bnd1_keep (c : Dev nD) (r : Ref sig .tc) (h : r ∉ hostOps0_W) : Bnd1 m ρ c (Proc.devRef .tc r) = Bnd0 m ρ c (Proc.devRef .tc r) :=
  StableHlo.after_of_writes_sub hostOps0 _ hostOps0_writes h

abbrev Vw1 : (c : Dev nD) → (b : Ref sig .tc) → Buf (Elt F) ((c : Thread nD τ).loc b) := fun c b => Bnd1 m ρ c b

-- At a region's exit its arrays hold the region's final contents; every other buffer is as the region found it.
def Bnd2 (c : Dev nD) : Valuation τ sig (Elt F) :=
  Pipeline.withArrays spec0 c (Bnd1 m ρ c) fun w => (dat0 (Vw1 m ρ) c).arrAt w cfg0.N
theorem Bnd2_arr (c : Dev nD) (w : Fin cfg0.W) :
    Bnd2 m ρ c (Proc.devRef .tc (Pipeline.arrRef spec0 w)) = (dat0 (Vw1 m ρ) c).arrAt w cfg0.N := by
  unfold Bnd2; exact Pipeline.withArrays_arr spec0 launch0.win.arr_inj c _ _ w
theorem Bnd2_of_ne (c : Dev nD) (b : Ref sig .tc) (hb : ∀ w, Pipeline.arrRef spec0 w ≠ b) :
    Bnd2 m ρ c (Proc.devRef .tc b) = Bnd1 m ρ c (Proc.devRef .tc b) := by
  unfold Bnd2; exact Pipeline.withArrays_of_ne spec0 c _ _ b hb
abbrev Vw2 : (c : Dev nD) → (b : Ref sig .tc) → Buf (Elt F) ((c : Thread nD τ).loc b) := fun c b => Bnd2 m ρ c b
theorem hF0 (c : Dev nD) (w : Fin cfg0.W) : (dat0 (Vw1 m ρ) c).arrAt w cfg0.N = Vw2 m ρ c (Pipeline.arrRef spec0 w) :=
  (Bnd2_arr m ρ c w).symm
theorem hrest0 (c : Dev nD) : ∀ b, b ∉ Finset.univ.image (Pipeline.arrRef spec0) → Vw2 m ρ c b = Vw1 m ρ c b :=
  fun b hb => Bnd2_of_ne m ρ c b fun w e => hb (Finset.mem_image.mpr ⟨w, Finset.mem_univ _, e⟩)

theorem Bnd2_in (c : Dev nD) (w : Fin cfg0.W) (hw : (cfg0.win w).isOut = false) :
    Bnd2 m ρ c (Proc.devRef .tc (Pipeline.arrRef spec0 w)) = Bnd1 m ρ c (Proc.devRef .tc (Pipeline.arrRef spec0 w)) :=
  (Bnd2_arr m ρ c w).trans (((dat0 (Vw1 m ρ) c).arrAt_in w hw _).trans (A_eq0 (Vw1 m ρ) c w))

theorem Bnd2_keep (c : Dev nD) (r : Ref sig .tc) (h : r ∉ ([main_v37] : List (Ref sig .tc))) :
    Bnd2 m ρ c (Proc.devRef .tc r) = Bnd1 m ρ c (Proc.devRef .tc r) := by
  by_cases hr : ∃ w, Pipeline.arrRef spec0 w = r
  · obtain ⟨w, rfl⟩ := hr
    refine Bnd2_in m ρ c w ?_
    revert h; revert w
    exact (by decide : ∀ w : Fin 6, Pipeline.arrRef spec0 w ∉ ([main_v37] : List (Ref sig .tc)) → (win0 w).isOut = false)
  · exact Bnd2_of_ne m ρ c r fun w e => hr ⟨w, e⟩

abbrev Bnd3 : Dev nD → Valuation τ sig (Elt F) := fun c => StableHlo.after hostOps1 (Bnd2 m ρ c)
theorem Bnd3_keep (c : Dev nD) (r : Ref sig .tc) (h : r ∉ hostOps1_W) : Bnd3 m ρ c (Proc.devRef .tc r) = Bnd2 m ρ c (Proc.devRef .tc r) :=
  StableHlo.after_of_writes_sub hostOps1 _ hostOps1_writes h

abbrev Vw3 : (c : Dev nD) → (b : Ref sig .tc) → Buf (Elt F) ((c : Thread nD τ).loc b) := fun c b => Bnd3 m ρ c b

def Bnd4 (c : Dev nD) : Valuation τ sig (Elt F) :=
  Pipeline.withArrays spec1 c (Bnd3 m ρ c) fun w => (dat1 (Vw3 m ρ) c).arrAt w cfg1.N
theorem Bnd4_arr (c : Dev nD) (w : Fin cfg1.W) :
    Bnd4 m ρ c (Proc.devRef .tc (Pipeline.arrRef spec1 w)) = (dat1 (Vw3 m ρ) c).arrAt w cfg1.N := by
  unfold Bnd4; exact Pipeline.withArrays_arr spec1 launch1.win.arr_inj c _ _ w
theorem Bnd4_of_ne (c : Dev nD) (b : Ref sig .tc) (hb : ∀ w, Pipeline.arrRef spec1 w ≠ b) :
    Bnd4 m ρ c (Proc.devRef .tc b) = Bnd3 m ρ c (Proc.devRef .tc b) := by
  unfold Bnd4; exact Pipeline.withArrays_of_ne spec1 c _ _ b hb
abbrev Vw4 : (c : Dev nD) → (b : Ref sig .tc) → Buf (Elt F) ((c : Thread nD τ).loc b) := fun c b => Bnd4 m ρ c b
theorem hF1 (c : Dev nD) (w : Fin cfg1.W) : (dat1 (Vw3 m ρ) c).arrAt w cfg1.N = Vw4 m ρ c (Pipeline.arrRef spec1 w) :=
  (Bnd4_arr m ρ c w).symm
theorem hrest1 (c : Dev nD) : ∀ b, b ∉ Finset.univ.image (Pipeline.arrRef spec1) → Vw4 m ρ c b = Vw3 m ρ c b :=
  fun b hb => Bnd4_of_ne m ρ c b fun w e => hb (Finset.mem_image.mpr ⟨w, Finset.mem_univ _, e⟩)

theorem Bnd4_in (c : Dev nD) (w : Fin cfg1.W) (hw : (cfg1.win w).isOut = false) :
    Bnd4 m ρ c (Proc.devRef .tc (Pipeline.arrRef spec1 w)) = Bnd3 m ρ c (Proc.devRef .tc (Pipeline.arrRef spec1 w)) :=
  (Bnd4_arr m ρ c w).trans (((dat1 (Vw3 m ρ) c).arrAt_in w hw _).trans (A_eq1 (Vw3 m ρ) c w))

theorem Bnd4_keep (c : Dev nD) (r : Ref sig .tc) (h : r ∉ ([main_v48] : List (Ref sig .tc))) :
    Bnd4 m ρ c (Proc.devRef .tc r) = Bnd3 m ρ c (Proc.devRef .tc r) := by
  by_cases hr : ∃ w, Pipeline.arrRef spec1 w = r
  · obtain ⟨w, rfl⟩ := hr
    refine Bnd4_in m ρ c w ?_
    revert h; revert w
    exact (by decide : ∀ w : Fin 6, Pipeline.arrRef spec1 w ∉ ([main_v48] : List (Ref sig .tc)) → (win1 w).isOut = false)
  · exact Bnd4_of_ne m ρ c r fun w e => hr ⟨w, e⟩

def Bnd5 (c : Dev nD) : Valuation τ sig (Elt F) :=
  Pipeline.withArrays spec2 c (Bnd4 m ρ c) fun w => (dat2 (Vw4 m ρ) c).arrAt w cfg2.N
theorem Bnd5_arr (c : Dev nD) (w : Fin cfg2.W) :
    Bnd5 m ρ c (Proc.devRef .tc (Pipeline.arrRef spec2 w)) = (dat2 (Vw4 m ρ) c).arrAt w cfg2.N := by
  unfold Bnd5; exact Pipeline.withArrays_arr spec2 launch2.win.arr_inj c _ _ w
theorem Bnd5_of_ne (c : Dev nD) (b : Ref sig .tc) (hb : ∀ w, Pipeline.arrRef spec2 w ≠ b) :
    Bnd5 m ρ c (Proc.devRef .tc b) = Bnd4 m ρ c (Proc.devRef .tc b) := by
  unfold Bnd5; exact Pipeline.withArrays_of_ne spec2 c _ _ b hb
abbrev Vw5 : (c : Dev nD) → (b : Ref sig .tc) → Buf (Elt F) ((c : Thread nD τ).loc b) := fun c b => Bnd5 m ρ c b
theorem hF2 (c : Dev nD) (w : Fin cfg2.W) : (dat2 (Vw4 m ρ) c).arrAt w cfg2.N = Vw5 m ρ c (Pipeline.arrRef spec2 w) :=
  (Bnd5_arr m ρ c w).symm
theorem hrest2 (c : Dev nD) : ∀ b, b ∉ Finset.univ.image (Pipeline.arrRef spec2) → Vw5 m ρ c b = Vw4 m ρ c b :=
  fun b hb => Bnd5_of_ne m ρ c b fun w e => hb (Finset.mem_image.mpr ⟨w, Finset.mem_univ _, e⟩)

theorem Bnd5_in (c : Dev nD) (w : Fin cfg2.W) (hw : (cfg2.win w).isOut = false) :
    Bnd5 m ρ c (Proc.devRef .tc (Pipeline.arrRef spec2 w)) = Bnd4 m ρ c (Proc.devRef .tc (Pipeline.arrRef spec2 w)) :=
  (Bnd5_arr m ρ c w).trans (((dat2 (Vw4 m ρ) c).arrAt_in w hw _).trans (A_eq2 (Vw4 m ρ) c w))

theorem Bnd5_keep (c : Dev nD) (r : Ref sig .tc) (h : r ∉ ([main_v49] : List (Ref sig .tc))) :
    Bnd5 m ρ c (Proc.devRef .tc r) = Bnd4 m ρ c (Proc.devRef .tc r) := by
  by_cases hr : ∃ w, Pipeline.arrRef spec2 w = r
  · obtain ⟨w, rfl⟩ := hr
    refine Bnd5_in m ρ c w ?_
    revert h; revert w
    exact (by decide : ∀ w : Fin 3, Pipeline.arrRef spec2 w ∉ ([main_v49] : List (Ref sig .tc)) → (win2 w).isOut = false)
  · exact Bnd5_of_ne m ρ c r fun w e => hr ⟨w, e⟩

abbrev Bnd6 : Dev nD → Valuation τ sig (Elt F) := fun c => StableHlo.after hostOps3 (Bnd5 m ρ c)
theorem Bnd6_keep (c : Dev nD) (r : Ref sig .tc) (h : r ∉ hostOps3_W) : Bnd6 m ρ c (Proc.devRef .tc r) = Bnd5 m ρ c (Proc.devRef .tc r) :=
  StableHlo.after_of_writes_sub hostOps3 _ hostOps3_writes h

abbrev Bnd7 : Dev nD → Valuation τ sig (Elt F) := fun c => StableHlo.after hostOps3_1 (Bnd6 m ρ c)
theorem Bnd7_keep (c : Dev nD) (r : Ref sig .tc) (h : r ∉ hostOps3_1_W) : Bnd7 m ρ c (Proc.devRef .tc r) = Bnd6 m ρ c (Proc.devRef .tc r) :=
  StableHlo.after_of_writes_sub hostOps3_1 _ hostOps3_1_writes h

abbrev Vw7 : (c : Dev nD) → (b : Ref sig .tc) → Buf (Elt F) ((c : Thread nD τ).loc b) := fun c b => Bnd7 m ρ c b

def Bnd8 (c : Dev nD) : Valuation τ sig (Elt F) :=
  Pipeline.withArrays spec3 c (Bnd7 m ρ c) fun w => (dat3 (Vw7 m ρ) c).arrAt w cfg3.N
theorem Bnd8_arr (c : Dev nD) (w : Fin cfg3.W) :
    Bnd8 m ρ c (Proc.devRef .tc (Pipeline.arrRef spec3 w)) = (dat3 (Vw7 m ρ) c).arrAt w cfg3.N := by
  unfold Bnd8; exact Pipeline.withArrays_arr spec3 launch3.win.arr_inj c _ _ w
theorem Bnd8_of_ne (c : Dev nD) (b : Ref sig .tc) (hb : ∀ w, Pipeline.arrRef spec3 w ≠ b) :
    Bnd8 m ρ c (Proc.devRef .tc b) = Bnd7 m ρ c (Proc.devRef .tc b) := by
  unfold Bnd8; exact Pipeline.withArrays_of_ne spec3 c _ _ b hb
abbrev Vw8 : (c : Dev nD) → (b : Ref sig .tc) → Buf (Elt F) ((c : Thread nD τ).loc b) := fun c b => Bnd8 m ρ c b
theorem hF3 (c : Dev nD) (w : Fin cfg3.W) : (dat3 (Vw7 m ρ) c).arrAt w cfg3.N = Vw8 m ρ c (Pipeline.arrRef spec3 w) :=
  (Bnd8_arr m ρ c w).symm
theorem hrest3 (c : Dev nD) : ∀ b, b ∉ Finset.univ.image (Pipeline.arrRef spec3) → Vw8 m ρ c b = Vw7 m ρ c b :=
  fun b hb => Bnd8_of_ne m ρ c b fun w e => hb (Finset.mem_image.mpr ⟨w, Finset.mem_univ _, e⟩)

theorem Bnd8_in (c : Dev nD) (w : Fin cfg3.W) (hw : (cfg3.win w).isOut = false) :
    Bnd8 m ρ c (Proc.devRef .tc (Pipeline.arrRef spec3 w)) = Bnd7 m ρ c (Proc.devRef .tc (Pipeline.arrRef spec3 w)) :=
  (Bnd8_arr m ρ c w).trans (((dat3 (Vw7 m ρ) c).arrAt_in w hw _).trans (A_eq3 (Vw7 m ρ) c w))

theorem Bnd8_keep (c : Dev nD) (r : Ref sig .tc) (h : r ∉ ([main_v67] : List (Ref sig .tc))) :
    Bnd8 m ρ c (Proc.devRef .tc r) = Bnd7 m ρ c (Proc.devRef .tc r) := by
  by_cases hr : ∃ w, Pipeline.arrRef spec3 w = r
  · obtain ⟨w, rfl⟩ := hr
    refine Bnd8_in m ρ c w ?_
    revert h; revert w
    exact (by decide : ∀ w : Fin 3, Pipeline.arrRef spec3 w ∉ ([main_v67] : List (Ref sig .tc)) → (win3 w).isOut = false)
  · exact Bnd8_of_ne m ρ c r fun w e => hr ⟨w, e⟩

abbrev Bnd9 : Dev nD → Valuation τ sig (Elt F) := fun c => StableHlo.after hostOps4 (Bnd8 m ρ c)
theorem Bnd9_keep (c : Dev nD) (r : Ref sig .tc) (h : r ∉ hostOps4_W) : Bnd9 m ρ c (Proc.devRef .tc r) = Bnd8 m ρ c (Proc.devRef .tc r) :=
  StableHlo.after_of_writes_sub hostOps4 _ hostOps4_writes h

abbrev Bnd10 : Dev nD → Valuation τ sig (Elt F) := fun c => StableHlo.after hostOps4_1 (Bnd9 m ρ c)
theorem Bnd10_keep (c : Dev nD) (r : Ref sig .tc) (h : r ∉ hostOps4_1_W) : Bnd10 m ρ c (Proc.devRef .tc r) = Bnd9 m ρ c (Proc.devRef .tc r) :=
  StableHlo.after_of_writes_sub hostOps4_1 _ hostOps4_1_writes h

abbrev Vw10 : (c : Dev nD) → (b : Ref sig .tc) → Buf (Elt F) ((c : Thread nD τ).loc b) := fun c b => Bnd10 m ρ c b

def Bnd11 (c : Dev nD) : Valuation τ sig (Elt F) :=
  Pipeline.withArrays spec4 c (Bnd10 m ρ c) fun w => (dat4 (Vw10 m ρ) c).arrAt w cfg4.N
theorem Bnd11_arr (c : Dev nD) (w : Fin cfg4.W) :
    Bnd11 m ρ c (Proc.devRef .tc (Pipeline.arrRef spec4 w)) = (dat4 (Vw10 m ρ) c).arrAt w cfg4.N := by
  unfold Bnd11; exact Pipeline.withArrays_arr spec4 launch4.win.arr_inj c _ _ w
theorem Bnd11_of_ne (c : Dev nD) (b : Ref sig .tc) (hb : ∀ w, Pipeline.arrRef spec4 w ≠ b) :
    Bnd11 m ρ c (Proc.devRef .tc b) = Bnd10 m ρ c (Proc.devRef .tc b) := by
  unfold Bnd11; exact Pipeline.withArrays_of_ne spec4 c _ _ b hb
abbrev Vw11 : (c : Dev nD) → (b : Ref sig .tc) → Buf (Elt F) ((c : Thread nD τ).loc b) := fun c b => Bnd11 m ρ c b
theorem hF4 (c : Dev nD) (w : Fin cfg4.W) : (dat4 (Vw10 m ρ) c).arrAt w cfg4.N = Vw11 m ρ c (Pipeline.arrRef spec4 w) :=
  (Bnd11_arr m ρ c w).symm
theorem hrest4 (c : Dev nD) : ∀ b, b ∉ Finset.univ.image (Pipeline.arrRef spec4) → Vw11 m ρ c b = Vw10 m ρ c b :=
  fun b hb => Bnd11_of_ne m ρ c b fun w e => hb (Finset.mem_image.mpr ⟨w, Finset.mem_univ _, e⟩)

theorem Bnd11_in (c : Dev nD) (w : Fin cfg4.W) (hw : (cfg4.win w).isOut = false) :
    Bnd11 m ρ c (Proc.devRef .tc (Pipeline.arrRef spec4 w)) = Bnd10 m ρ c (Proc.devRef .tc (Pipeline.arrRef spec4 w)) :=
  (Bnd11_arr m ρ c w).trans (((dat4 (Vw10 m ρ) c).arrAt_in w hw _).trans (A_eq4 (Vw10 m ρ) c w))

theorem Bnd11_keep (c : Dev nD) (r : Ref sig .tc) (h : r ∉ ([main_v85] : List (Ref sig .tc))) :
    Bnd11 m ρ c (Proc.devRef .tc r) = Bnd10 m ρ c (Proc.devRef .tc r) := by
  by_cases hr : ∃ w, Pipeline.arrRef spec4 w = r
  · obtain ⟨w, rfl⟩ := hr
    refine Bnd11_in m ρ c w ?_
    revert h; revert w
    exact (by decide : ∀ w : Fin 3, Pipeline.arrRef spec4 w ∉ ([main_v85] : List (Ref sig .tc)) → (win4 w).isOut = false)
  · exact Bnd11_of_ne m ρ c r fun w e => hr ⟨w, e⟩

abbrev Bnd12 : Dev nD → Valuation τ sig (Elt F) := fun c => StableHlo.after hostOps5 (Bnd11 m ρ c)
theorem Bnd12_keep (c : Dev nD) (r : Ref sig .tc) (h : r ∉ hostOps5_W) : Bnd12 m ρ c (Proc.devRef .tc r) = Bnd11 m ρ c (Proc.devRef .tc r) :=
  StableHlo.after_of_writes_sub hostOps5 _ hostOps5_writes h

abbrev Vw12 : (c : Dev nD) → (b : Ref sig .tc) → Buf (Elt F) ((c : Thread nD τ).loc b) := fun c b => Bnd12 m ρ c b

def Bnd13 (c : Dev nD) : Valuation τ sig (Elt F) :=
  Pipeline.withArrays spec5 c (Bnd12 m ρ c) fun w => (dat5 (Vw12 m ρ) c).arrAt w cfg5.N
theorem Bnd13_arr (c : Dev nD) (w : Fin cfg5.W) :
    Bnd13 m ρ c (Proc.devRef .tc (Pipeline.arrRef spec5 w)) = (dat5 (Vw12 m ρ) c).arrAt w cfg5.N := by
  unfold Bnd13; exact Pipeline.withArrays_arr spec5 launch5.win.arr_inj c _ _ w
theorem Bnd13_of_ne (c : Dev nD) (b : Ref sig .tc) (hb : ∀ w, Pipeline.arrRef spec5 w ≠ b) :
    Bnd13 m ρ c (Proc.devRef .tc b) = Bnd12 m ρ c (Proc.devRef .tc b) := by
  unfold Bnd13; exact Pipeline.withArrays_of_ne spec5 c _ _ b hb
abbrev Vw13 : (c : Dev nD) → (b : Ref sig .tc) → Buf (Elt F) ((c : Thread nD τ).loc b) := fun c b => Bnd13 m ρ c b
theorem hF5 (c : Dev nD) (w : Fin cfg5.W) : (dat5 (Vw12 m ρ) c).arrAt w cfg5.N = Vw13 m ρ c (Pipeline.arrRef spec5 w) :=
  (Bnd13_arr m ρ c w).symm
theorem hrest5 (c : Dev nD) : ∀ b, b ∉ Finset.univ.image (Pipeline.arrRef spec5) → Vw13 m ρ c b = Vw12 m ρ c b :=
  fun b hb => Bnd13_of_ne m ρ c b fun w e => hb (Finset.mem_image.mpr ⟨w, Finset.mem_univ _, e⟩)

theorem Bnd13_in (c : Dev nD) (w : Fin cfg5.W) (hw : (cfg5.win w).isOut = false) :
    Bnd13 m ρ c (Proc.devRef .tc (Pipeline.arrRef spec5 w)) = Bnd12 m ρ c (Proc.devRef .tc (Pipeline.arrRef spec5 w)) :=
  (Bnd13_arr m ρ c w).trans (((dat5 (Vw12 m ρ) c).arrAt_in w hw _).trans (A_eq5 (Vw12 m ρ) c w))

theorem Bnd13_keep (c : Dev nD) (r : Ref sig .tc) (h : r ∉ ([main_v113_0, main_v113_1] : List (Ref sig .tc))) :
    Bnd13 m ρ c (Proc.devRef .tc r) = Bnd12 m ρ c (Proc.devRef .tc r) := by
  by_cases hr : ∃ w, Pipeline.arrRef spec5 w = r
  · obtain ⟨w, rfl⟩ := hr
    refine Bnd13_in m ρ c w ?_
    revert h; revert w
    exact (by decide : ∀ w : Fin 7, Pipeline.arrRef spec5 w ∉ ([main_v113_0, main_v113_1] : List (Ref sig .tc)) → (win5 w).isOut = false)
  · exact Bnd13_of_ne m ρ c r fun w e => hr ⟨w, e⟩

theorem nmem_l {α : Type} {a : α} {A B : List α} (h : a ∉ A ++ B) : a ∉ A := fun h' => h (List.mem_append_left _ h')
theorem nmem_r {α : Type} {a : α} {A B : List α} (h : a ∉ A ++ B) : a ∉ B := fun h' => h (List.mem_append_right _ h')

-- The buffers the items between boundary 1 and boundary k write, the latest item first.
abbrev Wr2 : List (Ref sig .tc) := [main_v37]
abbrev Wr3 : List (Ref sig .tc) := hostOps1_W ++ Wr2
abbrev Wr4 : List (Ref sig .tc) := [main_v48] ++ Wr3
abbrev Wr5 : List (Ref sig .tc) := [main_v49] ++ Wr4
abbrev Wr6 : List (Ref sig .tc) := hostOps3_W ++ Wr5
abbrev Wr7 : List (Ref sig .tc) := hostOps3_1_W ++ Wr6
abbrev Wr8 : List (Ref sig .tc) := [main_v67] ++ Wr7
abbrev Wr9 : List (Ref sig .tc) := hostOps4_W ++ Wr8
abbrev Wr10 : List (Ref sig .tc) := hostOps4_1_W ++ Wr9
abbrev Wr11 : List (Ref sig .tc) := [main_v85] ++ Wr10
abbrev Wr12 : List (Ref sig .tc) := hostOps5_W ++ Wr11
abbrev Wr13 : List (Ref sig .tc) := [main_v113_0, main_v113_1] ++ Wr12

-- A buffer none of those items writes is the same at boundary k as at boundary 1,
theorem Bnd2_from1 (c : Dev nD) (r : Ref sig .tc) (h : r ∉ Wr2) : Bnd2 m ρ c (Proc.devRef .tc r) = Bnd1 m ρ c (Proc.devRef .tc r) :=
  Bnd2_keep m ρ c r h
theorem Bnd3_from1 (c : Dev nD) (r : Ref sig .tc) (h : r ∉ Wr3) : Bnd3 m ρ c (Proc.devRef .tc r) = Bnd1 m ρ c (Proc.devRef .tc r) :=
  (Bnd3_keep m ρ c r (nmem_l h)).trans (Bnd2_from1 m ρ c r (nmem_r h))
theorem Bnd4_from1 (c : Dev nD) (r : Ref sig .tc) (h : r ∉ Wr4) : Bnd4 m ρ c (Proc.devRef .tc r) = Bnd1 m ρ c (Proc.devRef .tc r) :=
  (Bnd4_keep m ρ c r (nmem_l h)).trans (Bnd3_from1 m ρ c r (nmem_r h))
theorem Bnd5_from1 (c : Dev nD) (r : Ref sig .tc) (h : r ∉ Wr5) : Bnd5 m ρ c (Proc.devRef .tc r) = Bnd1 m ρ c (Proc.devRef .tc r) :=
  (Bnd5_keep m ρ c r (nmem_l h)).trans (Bnd4_from1 m ρ c r (nmem_r h))
theorem Bnd6_from1 (c : Dev nD) (r : Ref sig .tc) (h : r ∉ Wr6) : Bnd6 m ρ c (Proc.devRef .tc r) = Bnd1 m ρ c (Proc.devRef .tc r) :=
  (Bnd6_keep m ρ c r (nmem_l h)).trans (Bnd5_from1 m ρ c r (nmem_r h))
theorem Bnd7_from1 (c : Dev nD) (r : Ref sig .tc) (h : r ∉ Wr7) : Bnd7 m ρ c (Proc.devRef .tc r) = Bnd1 m ρ c (Proc.devRef .tc r) :=
  (Bnd7_keep m ρ c r (nmem_l h)).trans (Bnd6_from1 m ρ c r (nmem_r h))
theorem Bnd8_from1 (c : Dev nD) (r : Ref sig .tc) (h : r ∉ Wr8) : Bnd8 m ρ c (Proc.devRef .tc r) = Bnd1 m ρ c (Proc.devRef .tc r) :=
  (Bnd8_keep m ρ c r (nmem_l h)).trans (Bnd7_from1 m ρ c r (nmem_r h))
theorem Bnd9_from1 (c : Dev nD) (r : Ref sig .tc) (h : r ∉ Wr9) : Bnd9 m ρ c (Proc.devRef .tc r) = Bnd1 m ρ c (Proc.devRef .tc r) :=
  (Bnd9_keep m ρ c r (nmem_l h)).trans (Bnd8_from1 m ρ c r (nmem_r h))
theorem Bnd10_from1 (c : Dev nD) (r : Ref sig .tc) (h : r ∉ Wr10) : Bnd10 m ρ c (Proc.devRef .tc r) = Bnd1 m ρ c (Proc.devRef .tc r) :=
  (Bnd10_keep m ρ c r (nmem_l h)).trans (Bnd9_from1 m ρ c r (nmem_r h))
theorem Bnd11_from1 (c : Dev nD) (r : Ref sig .tc) (h : r ∉ Wr11) : Bnd11 m ρ c (Proc.devRef .tc r) = Bnd1 m ρ c (Proc.devRef .tc r) :=
  (Bnd11_keep m ρ c r (nmem_l h)).trans (Bnd10_from1 m ρ c r (nmem_r h))
theorem Bnd12_from1 (c : Dev nD) (r : Ref sig .tc) (h : r ∉ Wr12) : Bnd12 m ρ c (Proc.devRef .tc r) = Bnd1 m ρ c (Proc.devRef .tc r) :=
  (Bnd12_keep m ρ c r (nmem_l h)).trans (Bnd11_from1 m ρ c r (nmem_r h))
theorem Bnd13_from1 (c : Dev nD) (r : Ref sig .tc) (h : r ∉ Wr13) : Bnd13 m ρ c (Proc.devRef .tc r) = Bnd1 m ρ c (Proc.devRef .tc r) :=
  (Bnd13_keep m ρ c r (nmem_l h)).trans (Bnd12_from1 m ρ c r (nmem_r h))

-- and, if the first stretch does not write it either, it still holds its launch contents there.
theorem Bnd1_launch (c : Dev nD) (r : Ref sig .tc) (h : r ∉ hostOps0_W) : Bnd1 m ρ c (Proc.devRef .tc r) = m ((c : Thread nD τ).loc r) :=
  Bnd1_keep m ρ c r h
theorem Bnd3_launch (c : Dev nD) (r : Ref sig .tc) (h : r ∉ Wr3 ++ hostOps0_W) : Bnd3 m ρ c (Proc.devRef .tc r) = m ((c : Thread nD τ).loc r) :=
  (Bnd3_from1 m ρ c r (nmem_l h)).trans (Bnd1_launch m ρ c r (nmem_r h))
theorem Bnd4_launch (c : Dev nD) (r : Ref sig .tc) (h : r ∉ Wr4 ++ hostOps0_W) : Bnd4 m ρ c (Proc.devRef .tc r) = m ((c : Thread nD τ).loc r) :=
  (Bnd4_from1 m ρ c r (nmem_l h)).trans (Bnd1_launch m ρ c r (nmem_r h))
theorem Bnd5_launch (c : Dev nD) (r : Ref sig .tc) (h : r ∉ Wr5 ++ hostOps0_W) : Bnd5 m ρ c (Proc.devRef .tc r) = m ((c : Thread nD τ).loc r) :=
  (Bnd5_from1 m ρ c r (nmem_l h)).trans (Bnd1_launch m ρ c r (nmem_r h))
theorem Bnd7_launch (c : Dev nD) (r : Ref sig .tc) (h : r ∉ Wr7 ++ hostOps0_W) : Bnd7 m ρ c (Proc.devRef .tc r) = m ((c : Thread nD τ).loc r) :=
  (Bnd7_from1 m ρ c r (nmem_l h)).trans (Bnd1_launch m ρ c r (nmem_r h))
theorem Bnd8_launch (c : Dev nD) (r : Ref sig .tc) (h : r ∉ Wr8 ++ hostOps0_W) : Bnd8 m ρ c (Proc.devRef .tc r) = m ((c : Thread nD τ).loc r) :=
  (Bnd8_from1 m ρ c r (nmem_l h)).trans (Bnd1_launch m ρ c r (nmem_r h))
theorem Bnd10_launch (c : Dev nD) (r : Ref sig .tc) (h : r ∉ Wr10 ++ hostOps0_W) : Bnd10 m ρ c (Proc.devRef .tc r) = m ((c : Thread nD τ).loc r) :=
  (Bnd10_from1 m ρ c r (nmem_l h)).trans (Bnd1_launch m ρ c r (nmem_r h))
theorem Bnd11_launch (c : Dev nD) (r : Ref sig .tc) (h : r ∉ Wr11 ++ hostOps0_W) : Bnd11 m ρ c (Proc.devRef .tc r) = m ((c : Thread nD τ).loc r) :=
  (Bnd11_from1 m ρ c r (nmem_l h)).trans (Bnd1_launch m ρ c r (nmem_r h))
theorem Bnd12_launch (c : Dev nD) (r : Ref sig .tc) (h : r ∉ Wr12 ++ hostOps0_W) : Bnd12 m ρ c (Proc.devRef .tc r) = m ((c : Thread nD τ).loc r) :=
  (Bnd12_from1 m ρ c r (nmem_l h)).trans (Bnd1_launch m ρ c r (nmem_r h))
theorem Bnd13_launch (c : Dev nD) (r : Ref sig .tc) (h : r ∉ Wr13 ++ hostOps0_W) : Bnd13 m ρ c (Proc.devRef .tc r) = m ((c : Thread nD τ).loc r) :=
  (Bnd13_from1 m ρ c r (nmem_l h)).trans (Bnd1_launch m ρ c r (nmem_r h))

abbrev admK : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) admK p) c
  | ⟨0, _⟩ => fun c => dat0 (Vw1 m ρ) c
  | ⟨1, _⟩ => fun c => dat1 (Vw3 m ρ) c
  | ⟨2, _⟩ => fun c => dat2 (Vw4 m ρ) c
  | ⟨3, _⟩ => fun c => dat3 (Vw7 m ρ) c
  | ⟨4, _⟩ => fun c => dat4 (Vw10 m ρ) c
  | ⟨5, _⟩ => fun c => dat5 (Vw12 m ρ) c
abbrev 𝒱n : Variants := Variants.none
abbrev Lv0 : GSem nD τ sig → Finset Unit := fun _ => ∅
abbrev lv0 : GSem nD τ sig → Unit → ℕ := fun _ _ => 0

abbrev Ride (c : Dev nD) : sProp 𝕄 := iprop((∃ r, prngReg c r) ∗ ∃ W, owes (c : Thread nD τ) (0 : CellTallies nD τ sig Unit) W)
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Bnd13 m ρ c) ∗ ∃ r, prngReg c r)

set_option backward.isDefEq.respectTransparency.types false in

-- A region as one step of the run: entered with every buffer at one valuation, left with them at the next.
def reg0 : Pipeline.RegionSeg (pcfgs (F := F)) admK (pdats m ρ) () defs₀ 𝒱n Lv0 lv0 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ Lv0 lv0 0 fun _ _ => rfl
  pre c := iprop(StableHlo.held (c : Thread nD τ) (Pipeline.ucRefs τ sig) (Bnd1 m ρ c) ∗ Ride c)
  post c := iprop(StableHlo.held (c : Thread nD τ) (Pipeline.ucRefs τ sig) (Bnd2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (Vw1 m ρ c) (Vw2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admK (pdats m ρ) () defs₀ 𝒱n Lv0 lv0 1 where
  win := launch1.win.to₀
  block_pos := launch1.block_pos
  stage_whole := launch1.stage_whole
  K := PEmpty
  osem k := k.elim
  ho := Pipeline.OwnSemFacts.none _
  hbody c := (body_obligation1 (Vw3 m ρ) c).loose
  hwaits := Pipeline.hwaits_of_owed_zero _ _ _ _ Lv0 lv0 1 fun _ _ => rfl
  pre c := iprop(StableHlo.held (c : Thread nD τ) (Pipeline.ucRefs τ sig) (Bnd3 m ρ c) ∗ Ride c)
  post c := iprop(StableHlo.held (c : Thread nD τ) (Pipeline.ucRefs τ sig) (Bnd4 m ρ c) ∗ Ride c)
  X c := iprop(∃ r, prngReg c r)
  Y c := iprop(∃ r, prngReg c r)
  Z c := Pipeline.unscopedRest (Ix := Unit) (Name := ℕ) (U := UR sig nD τ) (Lvl := ℕ) spec1 c (Vw3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (Vw3 m ρ c) (Vw4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) admK (pdats m ρ) () defs₀ 𝒱n Lv0 lv0 2 where
  win := launch2.win.to₀
  block_pos := launch2.block_pos
  stage_whole := launch2.stage_whole
  K := PEmpty
  osem k := k.elim
  ho := Pipeline.OwnSemFacts.none _
  hbody c := (body_obligation2 (Vw4 m ρ) c).loose
  hwaits := Pipeline.hwaits_of_owed_zero _ _ _ _ Lv0 lv0 2 fun _ _ => rfl
  pre c := iprop(StableHlo.held (c : Thread nD τ) (Pipeline.ucRefs τ sig) (Bnd4 m ρ c) ∗ Ride c)
  post c := iprop(StableHlo.held (c : Thread nD τ) (Pipeline.ucRefs τ sig) (Bnd5 m ρ c) ∗ Ride c)
  X c := iprop(∃ r, prngReg c r)
  Y c := iprop(∃ r, prngReg c r)
  Z c := Pipeline.unscopedRest (Ix := Unit) (Name := ℕ) (U := UR sig nD τ) (Lvl := ℕ) spec2 c (Vw4 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (Vw4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (Vw4 m ρ c) (Vw5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) admK (pdats m ρ) () defs₀ 𝒱n Lv0 lv0 3 where
  win := launch3.win.to₀
  block_pos := launch3.block_pos
  stage_whole := launch3.stage_whole
  K := PEmpty
  osem k := k.elim
  ho := Pipeline.OwnSemFacts.none _
  hbody c := (body_obligation3 (Vw7 m ρ) c).loose
  hwaits := Pipeline.hwaits_of_owed_zero _ _ _ _ Lv0 lv0 3 fun _ _ => rfl
  pre c := iprop(StableHlo.held (c : Thread nD τ) (Pipeline.ucRefs τ sig) (Bnd7 m ρ c) ∗ Ride c)
  post c := iprop(StableHlo.held (c : Thread nD τ) (Pipeline.ucRefs τ sig) (Bnd8 m ρ c) ∗ Ride c)
  X c := iprop(∃ r, prngReg c r)
  Y c := iprop(∃ r, prngReg c r)
  Z c := Pipeline.unscopedRest (Ix := Unit) (Name := ℕ) (U := UR sig nD τ) (Lvl := ℕ) spec3 c (Vw7 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (Vw7 m ρ c) (Vw8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) admK (pdats m ρ) () defs₀ 𝒱n Lv0 lv0 4 where
  win := launch4.win.to₀
  block_pos := launch4.block_pos
  stage_whole := launch4.stage_whole
  K := PEmpty
  osem k := k.elim
  ho := Pipeline.OwnSemFacts.none _
  hbody c := (body_obligation4 (Vw10 m ρ) c).loose
  hwaits := Pipeline.hwaits_of_owed_zero _ _ _ _ Lv0 lv0 4 fun _ _ => rfl
  pre c := iprop(StableHlo.held (c : Thread nD τ) (Pipeline.ucRefs τ sig) (Bnd10 m ρ c) ∗ Ride c)
  post c := iprop(StableHlo.held (c : Thread nD τ) (Pipeline.ucRefs τ sig) (Bnd11 m ρ c) ∗ Ride c)
  X c := iprop(∃ r, prngReg c r)
  Y c := iprop(∃ r, prngReg c r)
  Z c := Pipeline.unscopedRest (Ix := Unit) (Name := ℕ) (U := UR sig nD τ) (Lvl := ℕ) spec4 c (Vw10 m ρ c)
  hentry c := by
    rw [Pipeline.ownSems0_none]
    have hsplit := Pipeline.arrays_of_unscopedBufs (p := 4) (pcfgs (F := F)) admK (pdats m ρ) launch4.win launch4.arr_whole c
      ((pdats m ρ 4 c).share_full fun _ => rfl) (Vw10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m ρ) ((pdats m ρ 4 c).share_full fun _ => rfl)
      (Vw10 m ρ c) (Vw11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) admK (pdats m ρ) () defs₀ 𝒱n Lv0 lv0 5 where
  win := launch5.win.to₀
  block_pos := launch5.block_pos
  stage_whole := launch5.stage_whole
  K := PEmpty
  osem k := k.elim
  ho := Pipeline.OwnSemFacts.none _
  hbody c := (body_obligation5 (Vw12 m ρ) c).loose
  hwaits := Pipeline.hwaits_of_owed_zero _ _ _ _ Lv0 lv0 5 fun _ _ => rfl
  pre c := iprop(StableHlo.held (c : Thread nD τ) (Pipeline.ucRefs τ sig) (Bnd12 m ρ c) ∗ Ride c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Vw12 m ρ c)
  hentry c := by
    rw [Pipeline.ownSems0_none]
    have hsplit := Pipeline.arrays_of_unscopedBufs (p := 5) (pcfgs (F := F)) admK (pdats m ρ) launch5.win launch5.arr_whole c
      ((pdats m ρ 5 c).share_full fun _ => rfl) (Vw12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (Vw12 m ρ) c).Φ 0 from rfl]
    have h := hin5 (Vw12 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (Vw12 m ρ) c).Φ (Fin.last cfg5.N) from rfl]
    have h := hout5 (Vw12 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 5) (pcfgs (F := F)) admK (Ix := Unit) (Name := ℕ) (U := UR sig nD τ) (Lvl := ℕ)
      launch5.win launch5.arr_whole c (pdats m ρ) ((pdats m ρ 5 c).share_full fun _ => rfl)
      (Vw12 m ρ c) (Vw13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsAll : List (Pipeline.Seg (pcfgs (F := F)) admK (pdats m ρ) () defs₀ 𝒱n Lv0 lv0) :=
  [ .host (hsegOf hostOps0 hostOps0_sub hostOps0_fresh (Bnd0 m ρ)),
    .region (reg0 m ρ),
    .host (hsegOf hostOps1 hostOps1_sub hostOps1_fresh (Bnd2 m ρ)),
    .region (reg1 m ρ),
    .region (reg2 m ρ),
    .host (hsegOf hostOps3 hostOps3_sub hostOps3_fresh (Bnd5 m ρ)),
    .host (hsegOf hostOps3_1 hostOps3_1_sub hostOps3_1_fresh (Bnd6 m ρ)),
    .region (reg3 m ρ),
    .host (hsegOf hostOps4 hostOps4_sub hostOps4_fresh (Bnd8 m ρ)),
    .host (hsegOf hostOps4_1 hostOps4_1_sub hostOps4_1_fresh (Bnd9 m ρ)),
    .region (reg4 m ρ),
    .host (hsegOf hostOps5 hostOps5_sub hostOps5_fresh (Bnd11 m ρ)),
    .region (reg5 m ρ) ]

theorem main_run (c : Dev nD) : main (F := F) c = Pipeline.Seg.run (segsAll m ρ) := (main_chain c).trans (by chain_rfl)

set_option backward.isDefEq.respectTransparency.types false in

-- The six regions and the host stretches between them, run in order from the launch memory, end with every buffer at the last valuation.
theorem run_all : θ_run defs (onTc (τ := τ) (main (F := F))) ⟨m, fun _ => 0, ρ⟩ (fun r => ∀ c : Dev nD,
      ∀ b ∈ Pipeline.ucRefs τ sig, r.2.mem (((c : Thread nD τ)).1, b) = Bnd13 m ρ c b) :=
  Pipeline.θ_run_regions_kit (pcfgs (F := F)) admK (pdats m ρ) () cellOf_inj emb₁ defs₀ 𝒱n Lv0 lv0 m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m ρ c) ∗ Ride c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lv0 lv0 fun c => ?_
      rw [show unscopedBufs c (fun b => m ((c : Thread nD τ).loc b)) = StableHlo.held (c : Thread nD τ) (Pipeline.ucRefs τ sig) (Bnd0 m ρ c)
        from Pipeline.unscopedBufs_held c (Bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd13 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bnd13 m ρ c) s')
      isplitl [Hh] <;> iassumption)
    (hQ := fun s h => h)

-- Read off that valuation: the arguments are as launched and the two results are the last region's output arrays.
theorem run_named : θ_run defs (onTc (τ := τ) (main (F := F))) ⟨m, fun _ => 0, ρ⟩ (fun r => ∀ c : Dev nD,
      r.2.mem ((c.tc : Thread nD τ).loc main_v113_1) = (dat5 (Vw12 m ρ) c).arrAt 6 cfg5.N
      ∧ r.2.mem ((c.tc : Thread nD τ).loc main_v113_0) = (dat5 (Vw12 m ρ) c).arrAt 5 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v113_1 (by decide))).trans (Bnd13_arr m ρ c 6),
     (h c _ (mem_uc main_v113_0 (by decide))).trans (Bnd13_arr m ρ c 5),
     (h c _ (mem_uc main_arg0 (by decide))).trans (Bnd13_launch m ρ c main_arg0 (by decide)),
     (h c _ (mem_uc main_arg1 (by decide))).trans (Bnd13_launch m ρ c main_arg1 (by decide)),
     (h c _ (mem_uc main_arg2 (by decide))).trans (Bnd13_launch m ρ c main_arg2 (by decide)),
     (h c _ (mem_uc main_arg3 (by decide))).trans (Bnd13_launch m ρ c main_arg3 (by decide)),
     (h c _ (mem_uc main_arg4 (by decide))).trans (Bnd13_launch m ρ c main_arg4 (by decide)),
     (h c _ (mem_uc main_arg5 (by decide))).trans (Bnd13_launch m ρ c main_arg5 (by decide)),
     (h c _ (mem_uc main_arg6 (by decide))).trans (Bnd13_launch m ρ c main_arg6 (by decide)),
     (h c _ (mem_uc main_arg7 (by decide))).trans (Bnd13_launch m ρ c main_arg7 (by decide)),
     (h c _ (mem_uc main_arg8 (by decide))).trans (Bnd13_launch m ρ c main_arg8 (by decide)),
     (h c _ (mem_uc main_arg9 (by decide))).trans (Bnd13_launch m ρ c main_arg9 (by decide)),
     (h c _ (mem_uc main_arg10 (by decide))).trans (Bnd13_launch m ρ c main_arg10 (by decide)),
     (h c _ (mem_uc main_arg11 (by decide))).trans (Bnd13_launch m ρ c main_arg11 (by decide)),
     (h c _ (mem_uc main_arg12 (by decide))).trans (Bnd13_launch m ρ c main_arg12 (by decide)),
     (h c _ (mem_uc main_arg13 (by decide))).trans (Bnd13_launch m ρ c main_arg13 (by decide)),
     (h c _ (mem_uc main_arg14 (by decide))).trans (Bnd13_launch m ρ c main_arg14 (by decide)),
     (h c _ (mem_uc main_arg15 (by decide))).trans (Bnd13_launch m ρ c main_arg15 (by decide)),
     (h c _ (mem_uc main_arg16 (by decide))).trans (Bnd13_launch m ρ c main_arg16 (by decide))⟩)
    (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2.2) (run_named m ρ)

end Cert.KernelIdeal.Frame

end
-- ==== Proof.KI.Val0.lean ====
import proofs.«415776_j70411693851060_1_alg».proof.Proof.KI.Reg0
import proofs.«415776_j70411693851060_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

theorem layer0_lhs_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem layer0_lhs_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem layer0_rhs_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem layer0_rhs_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

-- A matrix product into a zero accumulator, read at an entry, is the sum over the contracted axis.
theorem layer0_matmul_apply {φ₁ φ₂ : FTy} (a : FVec Ideal S8000x128 φ₁) (w : FVec Ideal S128x128 φ₂) (p : Fin 8000) (q : Fin 128) :
    matmul dot_S8000x128_S128x128_S8000x128_1_0_0_1_n_n none a w (constant (F := Ideal) S8000x128 .f32 0x00000000#32) (ix2 p q)
      = ∑ k : Fin 128, a (ix2 p k) * w (ix2 k q) := by
  show FloatOps.matmul dot_S8000x128_S128x128_S8000x128_1_0_0_1_n_n none a w (constant (F := Ideal) S8000x128 .f32 0x00000000#32) (ix2 p q) = _
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun d => Fin.ext (by
    match d with
    | ⟨0, _⟩ => exact layer0_lhs_0 _ _
    | ⟨1, _⟩ => exact (layer0_lhs_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun d => Fin.ext (by
    match d with
    | ⟨0, _⟩ => exact (layer0_rhs_0 _ _).trans hk
    | ⟨1, _⟩ => exact layer0_rhs_1 _ _)
  rw [el, er]

theorem layer0_hlhs_0 (i : Cert.ReferenceIdeal.S40000x128.Idx) (q : Cert.ReferenceIdeal.dot_S40000x128_S128x128_S40000x128_1_0_0_1_n_n.contr.Idx) :
    (Cert.ReferenceIdeal.dot_S40000x128_S128x128_S40000x128_1_0_0_1_n_n.lhsIdx i q 0).val = (i 0).val := by
  unfold DotDims.lhsIdx
  rw [dif_neg (show ¬(0 : Fin Cert.ReferenceIdeal.S40000x128.rank) ∈ Cert.ReferenceIdeal.dot_S40000x128_S128x128_S40000x128_1_0_0_1_n_n.lhsBatch by decide), dif_pos (show (0 : Fin Cert.ReferenceIdeal.S40000x128.rank) ∈ Cert.ReferenceIdeal.dot_S40000x128_S128x128_S40000x128_1_0_0_1_n_n.lhsNonContracting by decide)]
  rfl
theorem layer0_hlhs_1 (i : Cert.ReferenceIdeal.S40000x128.Idx) (q : Cert.ReferenceIdeal.dot_S40000x128_S128x128_S40000x128_1_0_0_1_n_n.contr.Idx) :
    (Cert.ReferenceIdeal.dot_S40000x128_S128x128_S40000x128_1_0_0_1_n_n.lhsIdx i q 1).val = (q ⟨0, by decide⟩).val :=
  Cert.ReferenceIdeal.dot_S40000x128_S128x128_S40000x128_1_0_0_1_n_n.lhsIdx_val_of_single rfl i q
theorem layer0_hrhs_0 (i : Cert.ReferenceIdeal.S40000x128.Idx) (q : Cert.ReferenceIdeal.dot_S40000x128_S128x128_S40000x128_1_0_0_1_n_n.contr.Idx) :
    (Cert.ReferenceIdeal.dot_S40000x128_S128x128_S40000x128_1_0_0_1_n_n.rhsIdx i q 0).val = (q ⟨0, by decide⟩).val :=
  Cert.ReferenceIdeal.dot_S40000x128_S128x128_S40000x128_1_0_0_1_n_n.rhsIdx_val_of_single rfl i q
theorem layer0_hrhs_1 (i : Cert.ReferenceIdeal.S40000x128.Idx) (q : Cert.ReferenceIdeal.dot_S40000x128_S128x128_S40000x128_1_0_0_1_n_n.contr.Idx) :
    (Cert.ReferenceIdeal.dot_S40000x128_S128x128_S40000x128_1_0_0_1_n_n.rhsIdx i q 1).val = (i 1).val := by
  unfold DotDims.rhsIdx
  rw [dif_neg (show ¬(1 : Fin Cert.ReferenceIdeal.S128x128.rank) ∈ Cert.ReferenceIdeal.dot_S40000x128_S128x128_S40000x128_1_0_0_1_n_n.rhsBatch by decide), dif_pos (show (1 : Fin Cert.ReferenceIdeal.S128x128.rank) ∈ Cert.ReferenceIdeal.dot_S40000x128_S128x128_S40000x128_1_0_0_1_n_n.rhsNonContracting by decide)]
  rfl

-- So is the host's dot_general of a 40000 x 128 array by a 128 x 128 matrix.
theorem layer0_dot_apply (A : FVec Ideal Cert.ReferenceIdeal.S40000x128 .f32) (W : FVec Ideal Cert.ReferenceIdeal.S128x128 .f32) (r : Fin 40000) (q : Fin 128) :
    Host.dotGeneral (F := Ideal) Cert.ReferenceIdeal.dot_S40000x128_S128x128_S40000x128_1_0_0_1_n_n none A W (ix2 r q)
      = ∑ k : Fin 128, A (ix2 r k) * W (ix2 k q) := by
  simp only [Host.dotGeneral]
  rw [Ideal.dotGeneral_apply, ← Equiv.sum_comp (ValueIdx.contrEquiv1 Cert.ReferenceIdeal.dot_S40000x128_S128x128_S40000x128_1_0_0_1_n_n 128 rfl rfl).symm]
  refine Finset.sum_congr rfl fun k _ => ?_
  have hk := ValueIdx.contrEquiv1_symm_val Cert.ReferenceIdeal.dot_S40000x128_S128x128_S40000x128_1_0_0_1_n_n 128 rfl rfl k
  have el : Cert.ReferenceIdeal.dot_S40000x128_S128x128_S40000x128_1_0_0_1_n_n.lhsIdx (ix2 r q) ((ValueIdx.contrEquiv1 Cert.ReferenceIdeal.dot_S40000x128_S128x128_S40000x128_1_0_0_1_n_n 128 rfl rfl).symm k) = ix2 r k := funext fun d => Fin.ext (by
    match d with
    | ⟨0, _⟩ => exact layer0_hlhs_0 _ _
    | ⟨1, _⟩ => exact (layer0_hlhs_1 _ _).trans hk)
  have er : Cert.ReferenceIdeal.dot_S40000x128_S128x128_S40000x128_1_0_0_1_n_n.rhsIdx (ix2 r q) ((ValueIdx.contrEquiv1 Cert.ReferenceIdeal.dot_S40000x128_S128x128_S40000x128_1_0_0_1_n_n 128 rfl rfl).symm k) = ix2 k q := funext fun d => Fin.ext (by
    match d with
    | ⟨0, _⟩ => exact (layer0_hrhs_0 _ _).trans hk
    | ⟨1, _⟩ => exact layer0_hrhs_1 _ _)
  rw [el, er]

theorem layer0_pay_apply (agg x : Vec Ideal S8000x128 .f32) (wrel wroot : Vec Ideal S128x128 .f32) (b : Vec Ideal S128 .f32)
    (p : Fin 8000) (q : Fin 128) :
    k0_pay1 (F := Ideal) agg x wrel wroot b (ix2 p q)
      = max (∑ k : Fin 128, agg (ix2 p k) * wrel (ix2 k q) + ∑ k : Fin 128, x (ix2 p k) * wroot (ix2 k q) + b (ix1 q))
          (Ideal.ofBits .f32 0x00000000#32) := by
  unfold k0_pay1
  simp only [shapeCast_self]
  rw [maximumf_apply, addf_apply, addf_apply, layer0_matmul_apply, layer0_matmul_apply, broadcastTo_1b_ab_apply,
    shapeCast_a_1a_apply, broadcast_apply]
  rfl

theorem layer0_bias_apply (B : FVec Ideal Cert.ReferenceIdeal.S128 .f32) (r : Fin 40000) (q : Fin 128) :
    broadcastInDim Cert.ReferenceIdeal.S40000x128 ![0, 1] Cert.ReferenceIdeal.Gen.bcast_S1x128_S40000x128_0_1
        (broadcastInDim Cert.ReferenceIdeal.S1x128 ![1] Cert.ReferenceIdeal.Gen.bcast_S128_S1x128_1 B) (ix2 r q) = B (ix1 q) := by
  refine (broadcastInDim_apply _ Cert.ReferenceIdeal.Gen.bcast_S1x128_S40000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ Cert.ReferenceIdeal.Gen.bcast_S128_S1x128_1 B (ix2 (0 : Fin 1) q) (ix1 q) (fun a => match a with
    | ⟨0, _⟩ => by show q.val = if (128 : Nat) = 1 then 0 else q.val; rw [if_neg (by decide)])

theorem layer0_zero_apply (i : Cert.ReferenceIdeal.S40000x128.Idx) :
    broadcastInDim Cert.ReferenceIdeal.S40000x128 ![] Cert.ReferenceIdeal.Gen.bcast_S_S40000x128
        (constant (F := Ideal) Cert.ReferenceIdeal.S_ .f32 0x00000000#32) i = Ideal.ofBits .f32 0x00000000#32 :=
  broadcastInDim_apply _ Cert.ReferenceIdeal.Gen.bcast_S_S40000x128 _ i (fun a => a.elim0) (fun a => a.elim0)

abbrev layer0_host (A X : FVec Ideal Cert.ReferenceIdeal.S40000x128 .f32) (Wr Wo : FVec Ideal Cert.ReferenceIdeal.S128x128 .f32)
    (B : FVec Ideal Cert.ReferenceIdeal.S128 .f32) : FVec Ideal Cert.ReferenceIdeal.S40000x128 .f32 :=
  maximumf (addf (addf (Host.dotGeneral (F := Ideal) Cert.ReferenceIdeal.dot_S40000x128_S128x128_S40000x128_1_0_0_1_n_n none A Wr)
                       (Host.dotGeneral (F := Ideal) Cert.ReferenceIdeal.dot_S40000x128_S128x128_S40000x128_1_0_0_1_n_n none X Wo))
                 (broadcastInDim Cert.ReferenceIdeal.S40000x128 ![0, 1] Cert.ReferenceIdeal.Gen.bcast_S1x128_S40000x128_0_1
                   (broadcastInDim Cert.ReferenceIdeal.S1x128 ![1] Cert.ReferenceIdeal.Gen.bcast_S128_S1x128_1 B)))
           (broadcastInDim Cert.ReferenceIdeal.S40000x128 ![] Cert.ReferenceIdeal.Gen.bcast_S_S40000x128
             (constant (F := Ideal) Cert.ReferenceIdeal.S_ .f32 0x00000000#32))

theorem layer0_host_apply (A X : FVec Ideal Cert.ReferenceIdeal.S40000x128 .f32) (Wr Wo : FVec Ideal Cert.ReferenceIdeal.S128x128 .f32)
    (B : FVec Ideal Cert.ReferenceIdeal.S128 .f32) (r : Fin 40000) (q : Fin 128) :
    layer0_host A X Wr Wo B (ix2 r q)
      = max (∑ k : Fin 128, A (ix2 r k) * Wr (ix2 k q) + ∑ k : Fin 128, X (ix2 r k) * Wo (ix2 k q) + B (ix1 q))
          (Ideal.ofBits .f32 0x00000000#32) := by
  show max (Host.dotGeneral (F := Ideal) Cert.ReferenceIdeal.dot_S40000x128_S128x128_S40000x128_1_0_0_1_n_n none A Wr (ix2 r q) + Host.dotGeneral (F := Ideal) Cert.ReferenceIdeal.dot_S40000x128_S128x128_S40000x128_1_0_0_1_n_n none X Wo (ix2 r q)
      + broadcastInDim Cert.ReferenceIdeal.S40000x128 ![0, 1] Cert.ReferenceIdeal.Gen.bcast_S1x128_S40000x128_0_1
          (broadcastInDim Cert.ReferenceIdeal.S1x128 ![1] Cert.ReferenceIdeal.Gen.bcast_S128_S1x128_1 B) (ix2 r q))
    (broadcastInDim Cert.ReferenceIdeal.S40000x128 ![] Cert.ReferenceIdeal.Gen.bcast_S_S40000x128
      (constant (F := Ideal) Cert.ReferenceIdeal.S_ .f32 0x00000000#32) (ix2 r q)) = _
  rw [layer0_dot_apply, layer0_dot_apply, layer0_bias_apply, layer0_zero_apply]

-- The body's value at an entry of a row block is the host expression of the whole arrays at the entry those rows name.
theorem layer0_point (agg x : Vec Ideal S8000x128 .f32) (wrel wroot : Vec Ideal S128x128 .f32) (b : Vec Ideal S128 .f32)
    (A X : FVec Ideal Cert.ReferenceIdeal.S40000x128 .f32) (Wr Wo : FVec Ideal Cert.ReferenceIdeal.S128x128 .f32)
    (B : FVec Ideal Cert.ReferenceIdeal.S128 .f32) (j : S8000x128.Idx) (i : Cert.ReferenceIdeal.S40000x128.Idx)
    (hagg : ∀ (p : Fin 8000) (r : Fin 40000) (k : Fin 128), p.val = (j 0).val → r.val = (i 0).val → agg (ix2 p k) = A (ix2 r k))
    (hx : ∀ (p : Fin 8000) (r : Fin 40000) (k : Fin 128), p.val = (j 0).val → r.val = (i 0).val → x (ix2 p k) = X (ix2 r k))
    (hwrel : wrel = Wr) (hwroot : wroot = Wo) (hb : b = B) (h1 : (i 1).val = (j 1).val) :
    k0_pay1 (F := Ideal) agg x wrel wroot b j = layer0_host A X Wr Wo B i := by
  subst hwrel hwroot hb
  obtain ⟨p, q, rfl⟩ : ∃ (p : Fin 8000) (q : Fin 128), j = ix2 p q := ⟨j 0, j 1, eq_ix2 j⟩
  obtain ⟨r, q', rfl⟩ : ∃ (r : Fin 40000) (q' : Fin 128), i = ix2 r q' := ⟨i 0, i 1, eq_ix2 i⟩
  obtain rfl : q' = q := Fin.ext h1
  rw [layer0_pay_apply, layer0_host_apply]
  have e1 : ∀ k : Fin 128, agg (ix2 p k) = A (ix2 r k) := fun k => hagg p r k rfl rfl
  have e2 : ∀ k : Fin 128, x (ix2 p k) = X (ix2 r k) := fun k => hx p r k rfl rfl
  simp only [e1, e2]

variable (V : (c : Dev nD) → (b : Ref sig .tc) → Buf (Elt Ideal) ((c : Thread nD τ).loc b))

theorem layer0_hz2 : (![0, 0] : Fin 2 → Nat) = fun _ => 0 := funext fun a => by fin_cases a <;> rfl
theorem layer0_hz1 : (![0] : Fin 1 → Nat) = fun _ => 0 := funext fun a => by fin_cases a <;> rfl

theorem layer0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem layer0_flushed (c : Dev nD) (t : Fin cfg0.N) :
    (dat0 (F := Ideal) V c).flushed 5 t = ((cfg0.win 5).blk t).view.read (Elt Ideal)
      (layer0_host (V c main_v36) (V c main_arg0) (V c main_arg4) (V c main_arg3) (V c main_arg5)) := by
  show (cfg0.win 5).cut (grid0.coords t) ((dat0 (F := Ideal) V c).after 5 t) = _
  rw [after0_5]
  unfold conv0
  rw [View.canon_unit_zero layer0_hz2]
  simp only [View.ld_unit_zero (S := S8000x128) layer0_hz2, View.ld_unit_zero (S := S128x128) layer0_hz2, View.ld_unit_zero (S := S128) layer0_hz1]
  obtain ⟨e00, e01, e10, e11, e20, e21, e30, e31, e40, e50, e51⟩ := layer0_idx_facts t
  funext j
  show k0_pay1 (F := Ideal) (iblk0 V c 0 t) (iblk0 V c 1 t) (iblk0 V c 2 t) (iblk0 V c 3 t) (iblk0 V c 4 t) j
    = layer0_host (V c main_v36) (V c main_arg0) (V c main_arg4) (V c main_arg3) (V c main_arg5) (((cfg0.win 5).blk t).view.emb j)
  have hi0 : ((((cfg0.win 5).blk t).view.emb j) 0).val = win0_5.index t (0 : Fin 2) * 8000 + 1 * (j 0).val := rfl
  have hi1 : ((((cfg0.win 5).blk t).view.emb j) 1).val = win0_5.index t (1 : Fin 2) * 128 + 1 * (j 1).val := rfl
  refine layer0_point (iblk0 V c 0 t) (iblk0 V c 1 t) (iblk0 V c 2 t) (iblk0 V c 3 t) (iblk0 V c 4 t)
    (V c main_v36) (V c main_arg0) (V c main_arg4) (V c main_arg3) (V c main_arg5) j (((cfg0.win 5).blk t).view.emb j) ?_ ?_ ?_ ?_ ?_ ?_
  · intro p r k hp hr
    show V c main_v36 (((cfg0.win 0).blk t).view.emb (ix2 p k)) = V c main_v36 (ix2 r k)
    refine congrArg _ (funext fun a => Fin.ext ?_)
    match a with
    | ⟨0, _⟩ => show win0_0.index t (0 : Fin 2) * 8000 + 1 * p.val = r.val; rw [hr, hi0, e00, e50, hp]
    | ⟨1, _⟩ => show win0_0.index t (1 : Fin 2) * 128 + 1 * k.val = k.val; rw [e01]; omega
  · intro p r k hp hr
    show V c main_arg0 (((cfg0.win 1).blk t).view.emb (ix2 p k)) = V c main_arg0 (ix2 r k)
    refine congrArg _ (funext fun a => Fin.ext ?_)
    match a with
    | ⟨0, _⟩ => show win0_1.index t (0 : Fin 2) * 8000 + 1 * p.val = r.val; rw [hr, hi0, e10, e50, hp]
    | ⟨1, _⟩ => show win0_1.index t (1 : Fin 2) * 128 + 1 * k.val = k.val; rw [e11]; omega
  · funext y
    show V c main_arg4 (((cfg0.win 2).blk t).view.emb y) = V c main_arg4 y
    refine congrArg _ (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  · funext y
    show V c main_arg3 (((cfg0.win 3).blk t).view.emb y) = V c main_arg3 y
    refine congrArg _ (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  · funext y
    show V c main_arg5 (((cfg0.win 4).blk t).view.emb y) = V c main_arg5 y
    refine congrArg _ (funext fun a => Fin.ext ?_)
    match a with
    | ⟨0, _⟩ => show win0_4.index t (0 : Fin 1) * 128 + 1 * (y 0).val = (y 0).val; rw [e40]; omega
  · rw [hi1, e51]; omega

theorem layer0_mem_blk (t : Fin cfg0.N) (i : S40000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v37).slice (win0_5.rect t)).set ↔ _
  rw [View.set_slice_whole, Rect.mem_set_unit]
  exact Iff.rfl

theorem layer0_cover (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 5 := N_0
  have ht : (i 0).val / 8000 < cfg0.N := by rw [hN]; omega
  obtain ⟨-, -, -, -, -, -, -, -, -, e50, e51⟩ := layer0_idx_facts ⟨(i 0).val / 8000, ht⟩
  refine ⟨⟨(i 0).val / 8000, ht⟩, flush0_5 _, ?_⟩
  rw [layer0_mem_blk]
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    rw [e50]
    show (i 0).val / 8000 * 8000 ≤ (i 0).val ∧ (i 0).val < (i 0).val / 8000 * 8000 + 8000
    omega
  | ⟨1, _⟩ =>
    show win0_5.index ⟨(i 0).val / 8000, ht⟩ (1 : Fin 2) * 128 ≤ (i 1).val ∧ (i 1).val < win0_5.index ⟨(i 0).val / 8000, ht⟩ (1 : Fin 2) * 128 + 128
    rw [e51]
    omega

-- The five row blocks tile the output, so the region leaves the host expression of its input arrays.
theorem layer0_arr (c : Dev nD) :
    (dat0 (F := Ideal) V c).arrAt 5 cfg0.N
      = maximumf (addf (addf (Host.dotGeneral (F := Ideal) (φ₁ := .f32) (φ₂ := .f32) Cert.ReferenceIdeal.dot_S40000x128_S128x128_S40000x128_1_0_0_1_n_n none (V c main_v36) (V c main_arg4))
                             (Host.dotGeneral (F := Ideal) (φ₁ := .f32) (φ₂ := .f32) Cert.ReferenceIdeal.dot_S40000x128_S128x128_S40000x128_1_0_0_1_n_n none (V c main_arg0) (V c main_arg3)))
                       (broadcastInDim Cert.ReferenceIdeal.S40000x128 ![0, 1] Cert.ReferenceIdeal.Gen.bcast_S1x128_S40000x128_0_1
                         (broadcastInDim Cert.ReferenceIdeal.S1x128 ![1] Cert.ReferenceIdeal.Gen.bcast_S128_S1x128_1 (V c main_arg5))))
                 (broadcastInDim Cert.ReferenceIdeal.S40000x128 ![] Cert.ReferenceIdeal.Gen.bcast_S_S40000x128
                   (constant (F := Ideal) Cert.ReferenceIdeal.S_ .f32 0x00000000#32)) :=
  (dat0 (F := Ideal) V c).arrAt_eq_of_cover 5 _ (fun t _ => layer0_flushed V c t) layer0_cover

end Cert.KernelIdeal.Val

end
-- ==== Proof.KI.Val1.lean ====
import proofs.«415776_j70411693851060_1_alg».proof.Proof.KI.Reg1
import proofs.«415776_j70411693851060_1_alg».proof.Proof.KI.Val0

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

-- Region 1's body is region 0's with an identity reshape on one operand.
theorem k1_pay1_eq (agg x : Vec Ideal S8000x128 .f32) (wrel wroot : Vec Ideal S128x128 .f32) (b : Vec Ideal S128 .f32) :
    k1_pay1 (F := Ideal) agg x wrel wroot b = k0_pay1 agg x wrel wroot b := by
  unfold k1_pay1 k0_pay1
  simp only [shapeCast_self]

theorem layer1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem layer1_flushed (c : Dev nD) (t : Fin cfg1.N) :
    (dat1 (F := Ideal) V c).flushed 5 t = ((cfg1.win 5).blk t).view.read (Elt Ideal)
      (layer0_host (V c main_v47) (V c main_v37) (V c main_arg7) (V c main_arg6) (V c main_arg8)) := by
  show (cfg1.win 5).cut (grid1.coords t) ((dat1 (F := Ideal) V c).after 5 t) = _
  rw [after1_5]
  unfold conv1
  rw [View.canon_unit_zero layer0_hz2]
  simp only [View.ld_unit_zero (S := S8000x128) layer0_hz2, View.ld_unit_zero (S := S128x128) layer0_hz2, View.ld_unit_zero (S := S128) layer0_hz1]
  obtain ⟨e00, e01, e10, e11, e20, e21, e30, e31, e40, e50, e51⟩ := layer1_idx_facts t
  funext j
  rw [k1_pay1_eq]
  show k0_pay1 (F := Ideal) (iblk1 V c 0 t) (iblk1 V c 1 t) (iblk1 V c 2 t) (iblk1 V c 3 t) (iblk1 V c 4 t) j
    = layer0_host (V c main_v47) (V c main_v37) (V c main_arg7) (V c main_arg6) (V c main_arg8) (((cfg1.win 5).blk t).view.emb j)
  have hi0 : ((((cfg1.win 5).blk t).view.emb j) 0).val = win1_5.index t (0 : Fin 2) * 8000 + 1 * (j 0).val := rfl
  have hi1 : ((((cfg1.win 5).blk t).view.emb j) 1).val = win1_5.index t (1 : Fin 2) * 128 + 1 * (j 1).val := rfl
  refine layer0_point (iblk1 V c 0 t) (iblk1 V c 1 t) (iblk1 V c 2 t) (iblk1 V c 3 t) (iblk1 V c 4 t)
    (V c main_v47) (V c main_v37) (V c main_arg7) (V c main_arg6) (V c main_arg8) j (((cfg1.win 5).blk t).view.emb j) ?_ ?_ ?_ ?_ ?_ ?_
  · intro p r k hp hr
    show V c main_v47 (((cfg1.win 0).blk t).view.emb (ix2 p k)) = V c main_v47 (ix2 r k)
    refine congrArg _ (funext fun a => Fin.ext ?_)
    match a with
    | ⟨0, _⟩ => show win1_0.index t (0 : Fin 2) * 8000 + 1 * p.val = r.val; rw [hr, hi0, e00, e50, hp]
    | ⟨1, _⟩ => show win1_0.index t (1 : Fin 2) * 128 + 1 * k.val = k.val; rw [e01]; omega
  · intro p r k hp hr
    show V c main_v37 (((cfg1.win 1).blk t).view.emb (ix2 p k)) = V c main_v37 (ix2 r k)
    refine congrArg _ (funext fun a => Fin.ext ?_)
    match a with
    | ⟨0, _⟩ => show win1_1.index t (0 : Fin 2) * 8000 + 1 * p.val = r.val; rw [hr, hi0, e10, e50, hp]
    | ⟨1, _⟩ => show win1_1.index t (1 : Fin 2) * 128 + 1 * k.val = k.val; rw [e11]; omega
  · funext y
    show V c main_arg7 (((cfg1.win 2).blk t).view.emb y) = V c main_arg7 y
    refine congrArg _ (funext fun a => Fin.ext ?_)
    match a with
    | ⟨0, _⟩ => show win1_2.index t (0 : Fin 2) * 128 + 1 * (y 0).val = (y 0).val; rw [e20]; omega
    | ⟨1, _⟩ => show win1_2.index t (1 : Fin 2) * 128 + 1 * (y 1).val = (y 1).val; rw [e21]; omega
  · funext y
    show V c main_arg6 (((cfg1.win 3).blk t).view.emb y) = V c main_arg6 y
    refine congrArg _ (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  · funext y
    show V c main_arg8 (((cfg1.win 4).blk t).view.emb y) = V c main_arg8 y
    refine congrArg _ (funext fun a => Fin.ext ?_)
    match a with
    | ⟨0, _⟩ => show win1_4.index t (0 : Fin 1) * 128 + 1 * (y 0).val = (y 0).val; rw [e40]; omega
  · rw [hi1, e51]; omega

theorem layer1_mem_blk (t : Fin cfg1.N) (i : S40000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v48).slice (win1_5.rect t)).set ↔ _
  rw [View.set_slice_whole, Rect.mem_set_unit]
  exact Iff.rfl

theorem layer1_cover (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hN : cfg1.N = 5 := N_1
  have ht : (i 0).val / 8000 < cfg1.N := by rw [hN]; omega
  obtain ⟨-, -, -, -, -, -, -, -, -, e50, e51⟩ := layer1_idx_facts ⟨(i 0).val / 8000, ht⟩
  refine ⟨⟨(i 0).val / 8000, ht⟩, flush1_5 _, ?_⟩
  rw [layer1_mem_blk]
  intro a
  match a with
  | ⟨0, _⟩ =>
    show win1_5.index ⟨(i 0).val / 8000, ht⟩ (0 : Fin 2) * 8000 ≤ (i 0).val ∧ (i 0).val < win1_5.index ⟨(i 0).val / 8000, ht⟩ (0 : Fin 2) * 8000 + 8000
    rw [e50]
    show (i 0).val / 8000 * 8000 ≤ (i 0).val ∧ (i 0).val < (i 0).val / 8000 * 8000 + 8000
    omega
  | ⟨1, _⟩ =>
    show win1_5.index ⟨(i 0).val / 8000, ht⟩ (1 : Fin 2) * 128 ≤ (i 1).val ∧ (i 1).val < win1_5.index ⟨(i 0).val / 8000, ht⟩ (1 : Fin 2) * 128 + 128
    rw [e51]
    omega

-- The same for region 1, over region 0's lemmas about the body.
theorem layer1_arr (c : Dev nD) :
    (dat1 (F := Ideal) V c).arrAt 5 cfg1.N
      = maximumf (addf (addf (Host.dotGeneral (F := Ideal) (φ₁ := .f32) (φ₂ := .f32) Cert.ReferenceIdeal.dot_S40000x128_S128x128_S40000x128_1_0_0_1_n_n none (V c main_v47) (V c main_arg7))
                             (Host.dotGeneral (F := Ideal) (φ₁ := .f32) (φ₂ := .f32) Cert.ReferenceIdeal.dot_S40000x128_S128x128_S40000x128_1_0_0_1_n_n none (V c main_v37) (V c main_arg6)))
                       (broadcastInDim Cert.ReferenceIdeal.S40000x128 ![0, 1] Cert.ReferenceIdeal.Gen.bcast_S1x128_S40000x128_0_1
                         (broadcastInDim Cert.ReferenceIdeal.S1x128 ![1] Cert.ReferenceIdeal.Gen.bcast_S128_S1x128_1 (V c main_arg8))))
                 (broadcastInDim Cert.ReferenceIdeal.S40000x128 ![] Cert.ReferenceIdeal.Gen.bcast_S_S40000x128
                   (constant (F := Ideal) Cert.ReferenceIdeal.S_ .f32 0x00000000#32)) :=
  (dat1 (F := Ideal) V c).arrAt_eq_of_cover 5 _ (fun t _ => layer1_flushed V c t) layer1_cover

end Cert.KernelIdeal.Val

end
-- ==== Proof.KI.Val2.lean ====
import proofs.«415776_j70411693851060_1_alg».proof.Proof.KI.Reg2
import proofs.«415776_j70411693851060_1_alg».proof.Proof.KI.Val0
import proofs.«415776_j70411693851060_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl

theorem k2_pay1_apply (x : Vec Ideal S8000x128 .f32) (w : Vec Ideal S128x128 .f32) (p : Fin 8000) (q : Fin 128) :
    k2_pay1 (F := Ideal) x w (ix2 p q) = ∑ k : Fin 128, x (ix2 p k) * w (ix2 k q) := by
  unfold k2_pay1
  rw [shapeCast_self]
  exact layer0_matmul_apply (truncf (F := Ideal) .bf16 x bitsLt_bf16_f32) (truncf (F := Ideal) .bf16 w bitsLt_bf16_f32) p q

theorem prod2_apply (x : Vec Ideal S8000x128 .f32) (w : Vec Ideal S128x128 .f32) (p : Fin 8000) (q : Fin 128) :
    prod2 (F := Ideal) x w (ix2 p q) = ∑ k : Fin 128, x (ix2 p k) * w (ix2 k q) := by
  unfold prod2
  rw [View.canon_unit_zero hz2]
  simp only [View.ld_unit_zero (S := S8000x128) hz2, View.ld_unit_zero (S := S128x128) hz2]
  exact k2_pay1_apply x w p q

variable (V : (c : Dev nD) → (b : Ref sig .tc) → Buf (Elt Ideal) ((c : Thread nD τ).loc b))

-- A block's product at an entry is the whole arrays' host product at the entry the block's rows name.
theorem prod2_rows (X : FVec Ideal S40000x128 .f32) (W : FVec Ideal S128x128 .f32)
    (x : Vec Ideal S8000x128 .f32) (w : Vec Ideal S128x128 .f32) (n : Nat)
    (hx : ∀ (y : S8000x128.Idx) (i : S40000x128.Idx), (i 0).val = n * 8000 + (y 0).val → (i 1).val = (y 1).val → x y = X i)
    (hw : ∀ y : S128x128.Idx, w y = W y)
    (y : S8000x128.Idx) (i : S40000x128.Idx) (h0 : (i 0).val = n * 8000 + (y 0).val) (h1 : (i 1).val = (y 1).val) :
    prod2 (F := Ideal) x w y
      = Host.dotGeneral (F := Ideal) Cert.ReferenceIdeal.dot_S40000x128_S128x128_S40000x128_1_0_0_1_n_n none X W i := by
  obtain ⟨p, q, rfl⟩ : ∃ (p : Fin 8000) (q : Fin 128), y = ix2 p q := ⟨y 0, y 1, eq_ix2 y⟩
  obtain ⟨r, q', rfl⟩ : ∃ (r : Fin 40000) (q' : Fin 128), i = ix2 r q' := ⟨i 0, i 1, eq_ix2 i⟩
  obtain rfl : q' = q := Fin.ext h1
  rw [prod2_apply, layer0_dot_apply]
  refine Finset.sum_congr rfl fun k _ => ?_
  rw [hx (ix2 p k) (ix2 r k) h0 rfl, hw]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S40000x128_S128x128_S40000x128_1_0_0_1_n_n none (V c main_v48) (V c main_arg9)) := by
  show (cfg2.win 2).cut (grid2.coords t) ((dat2 (F := Ideal) V c).after 2 t) = _
  rw [after2_2]
  obtain ⟨e0, e1, e2, e3, e4, e5⟩ := idx_facts2 t
  funext j
  show prod2 (F := Ideal) (iblk2 V c 0 t) (iblk2 V c 1 t) j
    = Host.dotGeneral (F := Ideal) (φ₁ := .f32) (φ₂ := .f32) Cert.ReferenceIdeal.dot_S40000x128_S128x128_S40000x128_1_0_0_1_n_n none (V c main_v48) (V c main_arg9) (((cfg2.win 2).blk t).view.emb j)
  refine prod2_rows (V c main_v48) (V c main_arg9) (iblk2 V c 0 t) (iblk2 V c 1 t) t.val ?_ ?_ j _ ?_ ?_
  · intro y i h0 h1
    show V c main_v48 (((cfg2.win 0).blk t).view.emb y) = V c main_v48 i
    refine congrArg _ (funext fun a => Fin.ext ?_)
    match a with
    | ⟨0, _⟩ => show win2_0.index t (0 : Fin 2) * 8000 + 1 * (y 0).val = (i 0).val; omega
    | ⟨1, _⟩ => show win2_0.index t (1 : Fin 2) * 128 + 1 * (y 1).val = (i 1).val; omega
  · intro y
    show V c main_arg9 (((cfg2.win 1).blk t).view.emb y) = V c main_arg9 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 8000 + 1 * (j 0).val = t.val * 8000 + (j 0).val; omega
  · show win2_2.index t (1 : Fin 2) * 128 + 1 * (j 1).val = (j 1).val; omega

theorem mem_blk2 (t : Fin cfg2.N) (i : S40000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v49).slice (win2_2.rect t)).set ↔ _
  rw [View.set_slice_whole, Rect.mem_set_unit]
  exact Iff.rfl

theorem cover2 (i : S40000x128.Idx) : ∃ t : Fin cfg2.N, (cfg2.win 2).flush t = true ∧ i ∈ ((cfg2.win 2).blk t).view.set := by
  have hi0 : (i 0).val < 40000 := idx2_lt0 i
  have hi1 : (i 1).val < 128 := idx2_lt1 i
  have hN : cfg2.N = 5 := N_2
  obtain ⟨t, ht⟩ : ∃ t : Fin cfg2.N, t.val = (i 0).val / 8000 := ⟨⟨(i 0).val / 8000, by omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

-- The five row blocks tile the output, so the region leaves the host product of its two input arrays.
theorem proj2_arr (c : Dev nD) :
    (dat2 (F := Ideal) V c).arrAt 2 cfg2.N
      = Host.dotGeneral (F := Ideal) (φ₁ := .f32) (φ₂ := .f32) Cert.ReferenceIdeal.dot_S40000x128_S128x128_S40000x128_1_0_0_1_n_n none (V c main_v48) (V c main_arg9) :=
  (dat2 (F := Ideal) V c).arrAt_eq_of_cover 2 _ (fun t _ => flushed2_eq V c t) cover2

end Cert.KernelIdeal.Val

end
-- ==== Proof.KI.Val3.lean ====
import proofs.«415776_j70411693851060_1_alg».proof.Proof.KI.Reg3
import proofs.«415776_j70411693851060_1_alg».proof.Proof.KI.Val2

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (t : Fin cfg3.N) :
    (dat3 (F := Ideal) V c).flushed 2 t = ((cfg3.win 2).blk t).view.read (Elt Ideal)
      (Host.dotGeneral (F := Ideal) (φ₁ := .f32) (φ₂ := .f32) Cert.ReferenceIdeal.dot_S40000x128_S128x128_S40000x128_1_0_0_1_n_n none (V c main_v66) (V c main_arg11)) := by
  show (cfg3.win 2).cut (grid3.coords t) ((dat3 (F := Ideal) V c).after 2 t) = _
  rw [after3_2]
  obtain ⟨e0, e1, e2, e3, e4, e5⟩ := idx_facts3 t
  funext j
  show prod2 (F := Ideal) (iblk3 V c 0 t) (iblk3 V c 1 t) j
    = Host.dotGeneral (F := Ideal) (φ₁ := .f32) (φ₂ := .f32) Cert.ReferenceIdeal.dot_S40000x128_S128x128_S40000x128_1_0_0_1_n_n none (V c main_v66) (V c main_arg11) (((cfg3.win 2).blk t).view.emb j)
  refine prod2_rows (V c main_v66) (V c main_arg11) (iblk3 V c 0 t) (iblk3 V c 1 t) t.val ?_ ?_ j _ ?_ ?_
  · intro y i h0 h1
    show V c main_v66 (((cfg3.win 0).blk t).view.emb y) = V c main_v66 i
    refine congrArg _ (funext fun a => Fin.ext ?_)
    match a with
    | ⟨0, _⟩ => show win3_0.index t (0 : Fin 2) * 8000 + 1 * (y 0).val = (i 0).val; omega
    | ⟨1, _⟩ => show win3_0.index t (1 : Fin 2) * 128 + 1 * (y 1).val = (i 1).val; omega
  · intro y
    show V c main_arg11 (((cfg3.win 1).blk t).view.emb y) = V c main_arg11 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · show win3_2.index t (0 : Fin 2) * 8000 + 1 * (j 0).val = t.val * 8000 + (j 0).val; omega
  · show win3_2.index t (1 : Fin 2) * 128 + 1 * (j 1).val = (j 1).val; omega

theorem mem_blk3 (t : Fin cfg3.N) (i : S40000x128.Idx) :
    i ∈ ((cfg3.win 2).blk t).view.set ↔ ∀ a : Fin 2, win3_2.index t a * S8000x128.size a ≤ (i a).val ∧ (i a).val < win3_2.index t a * S8000x128.size a + S8000x128.size a := by
  show i ∈ ((View.whole main_v67).slice (win3_2.rect t)).set ↔ _
  rw [View.set_slice_whole, Rect.mem_set_unit]
  exact Iff.rfl

theorem cover3 (i : S40000x128.Idx) : ∃ t : Fin cfg3.N, (cfg3.win 2).flush t = true ∧ i ∈ ((cfg3.win 2).blk t).view.set := by
  have hi0 : (i 0).val < 40000 := idx2_lt0 i
  have hi1 : (i 1).val < 128 := idx2_lt1 i
  have hN : cfg3.N = 5 := N_3
  obtain ⟨t, ht⟩ : ∃ t : Fin cfg3.N, t.val = (i 0).val / 8000 := ⟨⟨(i 0).val / 8000, by omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 128 ≤ (i 1).val ∧ (i 1).val < win3_2.index t (1 : Fin 2) * 128 + 128; omega

-- The same for this region, over region 2's lemmas about the product.
theorem proj3_arr (c : Dev nD) :
    (dat3 (F := Ideal) V c).arrAt 2 cfg3.N
      = Host.dotGeneral (F := Ideal) (φ₁ := .f32) (φ₂ := .f32) Cert.ReferenceIdeal.dot_S40000x128_S128x128_S40000x128_1_0_0_1_n_n none (V c main_v66) (V c main_arg11) :=
  (dat3 (F := Ideal) V c).arrAt_eq_of_cover 2 _ (fun t _ => flushed3_eq V c t) cover3

end Cert.KernelIdeal.Val

end
-- ==== Proof.KI.Val4.lean ====
import proofs.«415776_j70411693851060_1_alg».proof.Proof.KI.Reg4
import proofs.«415776_j70411693851060_1_alg».proof.Proof.KI.Val2

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4_eq (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S40000x128_S128x128_S40000x128_1_0_0_1_n_n none (V c main_v84) (V c main_arg13)) := by
  show (cfg4.win 2).cut (grid4.coords t) ((dat4 (F := Ideal) V c).after 2 t) = _
  rw [after4_2]
  obtain ⟨e0, e1, e2, e3, e4, e5⟩ := idx_facts4 t
  funext j
  show prod2 (F := Ideal) (iblk4 V c 0 t) (iblk4 V c 1 t) j
    = Host.dotGeneral (F := Ideal) (φ₁ := .f32) (φ₂ := .f32) Cert.ReferenceIdeal.dot_S40000x128_S128x128_S40000x128_1_0_0_1_n_n none (V c main_v84) (V c main_arg13) (((cfg4.win 2).blk t).view.emb j)
  refine prod2_rows (V c main_v84) (V c main_arg13) (iblk4 V c 0 t) (iblk4 V c 1 t) t.val ?_ ?_ j _ ?_ ?_
  · intro y i h0 h1
    show V c main_v84 (((cfg4.win 0).blk t).view.emb y) = V c main_v84 i
    refine congrArg _ (funext fun a => Fin.ext ?_)
    match a with
    | ⟨0, _⟩ => show win4_0.index t (0 : Fin 2) * 8000 + 1 * (y 0).val = (i 0).val; omega
    | ⟨1, _⟩ => show win4_0.index t (1 : Fin 2) * 128 + 1 * (y 1).val = (i 1).val; omega
  · intro y
    show V c main_arg13 (((cfg4.win 1).blk t).view.emb y) = V c main_arg13 y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · show win4_2.index t (0 : Fin 2) * 8000 + 1 * (j 0).val = t.val * 8000 + (j 0).val; omega
  · show win4_2.index t (1 : Fin 2) * 128 + 1 * (j 1).val = (j 1).val; omega

theorem mem_blk4 (t : Fin cfg4.N) (i : S40000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v85).slice (win4_2.rect t)).set ↔ _
  rw [View.set_slice_whole, Rect.mem_set_unit]
  exact Iff.rfl

theorem cover4 (i : S40000x128.Idx) : ∃ t : Fin cfg4.N, (cfg4.win 2).flush t = true ∧ i ∈ ((cfg4.win 2).blk t).view.set := by
  have hi0 : (i 0).val < 40000 := idx2_lt0 i
  have hi1 : (i 1).val < 128 := idx2_lt1 i
  have hN : cfg4.N = 5 := N_4
  obtain ⟨t, ht⟩ : ∃ t : Fin cfg4.N, t.val = (i 0).val / 8000 := ⟨⟨(i 0).val / 8000, by omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

-- The same for this region, over region 2's lemmas about the product.
theorem proj4_arr (c : Dev nD) :
    (dat4 (F := Ideal) V c).arrAt 2 cfg4.N
      = Host.dotGeneral (F := Ideal) (φ₁ := .f32) (φ₂ := .f32) Cert.ReferenceIdeal.dot_S40000x128_S128x128_S40000x128_1_0_0_1_n_n none (V c main_v84) (V c main_arg13) :=
  (dat4 (F := Ideal) V c).arrAt_eq_of_cover 2 _ (fun t _ => flushed4_eq V c t) cover4

end Cert.KernelIdeal.Val

end
-- ==== Proof.KI.RegStage.lean ====
import proofs.«415776_j70411693851060_1_alg».proof.Proof.KI.Val0
import proofs.«415776_j70411693851060_1_alg».proof.Proof.KI.Val1
import proofs.«415776_j70411693851060_1_alg».proof.Proof.KI.Val2
import proofs.«415776_j70411693851060_1_alg».proof.Proof.KI.Val3
import proofs.«415776_j70411693851060_1_alg».proof.Proof.KI.Val4
import proofs.«415776_j70411693851060_1_alg».proof.Proof.Gen.ReferenceIdeal.Read

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.Pipeline (Dat)
open Cert.ReferenceIdeal.Read (val_main_v21 val_main_v22 val_main_v23 val_main_v24 val_main_v25 val_main_v26 val_main_v27
  val_main_call0_cst val_main_call0_v0 val_main_v28 val_main_v38 val_main_v39 val_main_v40 val_main_v41 val_main_v42 val_main_v43
  val_main_v44 val_main_call1_cst val_main_call1_v0 val_main_v45 val_main_v46 val_main_v78 val_main_v79 val_main_v111 val_main_v112)

variable (V : (c : Dev nD) → (b : Ref sig .tc) → Buf (Elt Ideal) ((c : Thread nD τ).loc b))

-- If the arrays a dense region reads hold the reference's earlier stages, the array it leaves is the reference's next stage.
theorem reg0_stage (c : Dev nD) (x0 : (⟨Cert.ReferenceIdeal.S40000x128, .f32⟩ : BufTy).Contents (Elt Ideal)) (x1 : (⟨Cert.ReferenceIdeal.S2x600000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal))
    (h36 : V c main_v36 = val_main_v21 (F := Ideal) x0 x1) (h0 : V c main_arg0 = x0) (h4 : V c main_arg4 = x4)
    (h3 : V c main_arg3 = x3) (h5 : V c main_arg5 = x5) :
    (dat0 (F := Ideal) V c).arrAt 5 cfg0.N = val_main_v28 (F := Ideal) x0 x1 x3 x4 x5 := by
  subst h0 h4 h3 h5
  rw [layer0_arr, h36]
  unfold val_main_v28 val_main_v27 val_main_v24 val_main_v22 val_main_v23 val_main_v26 val_main_v25 val_main_call0_v0 val_main_call0_cst
  rfl

theorem reg1_stage (c : Dev nD) (x0 : (⟨Cert.ReferenceIdeal.S40000x128, .f32⟩ : BufTy).Contents (Elt Ideal)) (x1 : (⟨Cert.ReferenceIdeal.S2x600000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S128x128, .f32⟩ : BufTy).Contents (Elt Ideal)) (x8 : (⟨Cert.ReferenceIdeal.S128, .f32⟩ : BufTy).Contents (Elt Ideal))
    (h47 : V c main_v47 = val_main_v38 (F := Ideal) x0 x1 x3 x4 x5) (h37 : V c main_v37 = val_main_v28 (F := Ideal) x0 x1 x3 x4 x5)
    (h7 : V c main_arg7 = x7) (h6 : V c main_arg6 = x6) (h8 : V c main_arg8 = x8) :
    (dat1 (F := Ideal) V c).arrAt 5 cfg1.N = val_main_v45 (F := Ideal) x0 x1 x3 x4 x5 x6 x7 x8 := by
  subst h7 h6 h8
  rw [layer1_arr, h47, h37]
  unfold val_main_v45 val_main_v44 val_main_v41 val_main_v39 val_main_v40 val_main_v43 val_main_v42 val_main_call1_v0 val_main_call1_cst
  rfl

theorem reg2_stage (c : Dev nD) (x0 : (⟨Cert.ReferenceIdeal.S40000x128, .f32⟩ : BufTy).Contents (Elt Ideal)) (x1 : (⟨Cert.ReferenceIdeal.S2x600000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal))
    (h48 : V c main_v48 = val_main_v45 (F := Ideal) x0 x1 x3 x4 x5 x6 x7 x8) (h9 : V c main_arg9 = x9) :
    (dat2 (F := Ideal) V c).arrAt 2 cfg2.N = val_main_v46 (F := Ideal) x0 x1 x3 x4 x5 x6 x7 x8 x9 := by
  subst h9
  rw [proj2_arr, h48]
  unfold val_main_v46
  rfl

theorem reg3_stage (c : Dev nD) (x0 : (⟨Cert.ReferenceIdeal.S40000x128, .f32⟩ : BufTy).Contents (Elt Ideal)) (x1 : (⟨Cert.ReferenceIdeal.S2x600000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal))
    (h66 : V c main_v66 = val_main_v78 (F := Ideal) x0 x1 x3 x4 x5 x6 x7 x8 x9 x10) (h11 : V c main_arg11 = x11) :
    (dat3 (F := Ideal) V c).arrAt 2 cfg3.N = val_main_v79 (F := Ideal) x0 x1 x3 x4 x5 x6 x7 x8 x9 x10 x11 := by
  subst h11
  rw [proj3_arr, h66]
  unfold val_main_v79
  rfl

theorem reg4_stage (c : Dev nD) (x0 : (⟨Cert.ReferenceIdeal.S40000x128, .f32⟩ : BufTy).Contents (Elt Ideal)) (x1 : (⟨Cert.ReferenceIdeal.S2x600000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128x128, .f32⟩ : BufTy).Contents (Elt Ideal))
    (h84 : V c main_v84 = val_main_v111 (F := Ideal) x0 x1 x3 x4 x5 x6 x7 x8 x9 x10 x11 x12) (h13 : V c main_arg13 = x13) :
    (dat4 (F := Ideal) V c).arrAt 2 cfg4.N = val_main_v112 (F := Ideal) x0 x1 x3 x4 x5 x6 x7 x8 x9 x10 x11 x12 x13 := by
  subst h13
  rw [proj4_arr, h84]
  unfold val_main_v112
  rfl

end Cert.KernelIdeal.Val

end
-- ==== Proof.LibSegmentRows.lean ====
import Idealize.ShloMosaic.PureOps.Ideal
import Idealize.ShloMosaic.PureOps.Ideal.Laws
import Idealize.ShloMosaic.Lib.ValueIdx

noncomputable section

open scoped BigOperators

namespace Idealize.ShloMosaic.SegmentRows

open Idealize.ShloMosaic Idealize.ShloMosaic.ValueIdx

private theorem uScatter_mem {K D N : Nat} (d : ScatterDims ⟨2, ![K, D]⟩ ⟨2, ![N, 1]⟩ ⟨2, ![N, D]⟩)
    (huw : d.updateWindowDims = [1]) (X : Fin 2) (hX : X ∈ d.uScatter) : X = 0 := by
  have h := (List.mem_filter.1 hX).2
  rw [huw] at h
  match X with
  | ⟨0, _⟩ => rfl
  | ⟨1, _⟩ => simp at h

private theorem start_zero {K D N w : Nat} (d : ScatterDims ⟨2, ![K, D]⟩ ⟨2, ![N, 1]⟩ ⟨2, ![N, D]⟩)
    (huw : d.updateWindowDims = [1])
    (hsd : d.scatterDimsToOperandDims = [0]) (hiv : d.indexVectorDim = 1)
    (idx : IVec ⟨2, ![N, 1]⟩ w) (n : Fin N) (j' : Fin D) :
    d.start (ix2 n j') idx 0 = (idx (ix2 n (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>

    unfold ScatterDims.siIdx
    rw [dif_neg (by rw [hiv]; simp)]
    unfold ScatterDims.siCoord
    apply Fin.ext
    simp only [Fin.val_cast]
    have e : ∀ X : Fin 2, X ∈ d.uScatter → ((ix2 n j' : (⟨2, ![N, D]⟩ : Shape).Idx) X).val = n.val := fun X hX => by
      obtain rfl := uScatter_mem d huw X hX
      rfl
    exact e _ (List.getElem_mem _)
  | ⟨1, _⟩ =>

    unfold ScatterDims.siIdx
    rw [dif_pos (by rw [hiv])]
    apply Fin.ext
    show List.idxOf (0 : Fin 2) d.scatterDimsToOperandDims = 0
    rw [hsd]; simp

private theorem start_one {K D N w : Nat} (d : ScatterDims ⟨2, ![K, D]⟩ ⟨2, ![N, 1]⟩ ⟨2, ![N, D]⟩)
    (hsd : d.scatterDimsToOperandDims = [0])
    (idx : IVec ⟨2, ![N, 1]⟩ w) (i : (⟨2, ![N, D]⟩ : Shape).Idx) :
    d.start i idx 1 = 0 := by
  unfold ScatterDims.start
  rw [dif_neg]
  rw [hsd]; simp

private theorem window_zero {K D N : Nat} (d : ScatterDims ⟨2, ![K, D]⟩ ⟨2, ![N, 1]⟩ ⟨2, ![N, D]⟩)
    (hiw : d.insertedWindowDims = [0]) (i : (⟨2, ![N, D]⟩ : Shape).Idx) :
    d.window i 0 = 0 := by
  unfold ScatterDims.window
  rw [dif_neg]
  simp [ScatterDims.sKept, Shape.kept, hiw]

private theorem window_one {K D N : Nat} (d : ScatterDims ⟨2, ![K, D]⟩ ⟨2, ![N, 1]⟩ ⟨2, ![N, D]⟩)
    (huw : d.updateWindowDims = [1]) (hiw : d.insertedWindowDims = [0]) (i : (⟨2, ![N, D]⟩ : Shape).Idx) :
    d.window i 1 = (i 1).val := by
  have hm : (1 : Fin 2) ∈ d.sKept := by
    simp [ScatterDims.sKept, Shape.kept, hiw]
  unfold ScatterDims.window
  rw [dif_pos hm]
  have e : ∀ X : Fin 2, X ∈ d.updateWindowDims → X = 1 := fun X hX => by
    rw [huw] at hX; exact List.mem_singleton.1 hX
  exact congrArg (fun X => (i X).val) (e _ (List.getElem_mem _))

theorem resultIdx?_eq_some_iff {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (j' : Fin D) (s : Fin K) (j : Fin D) :
    d.resultIdx? (ix2 n j') idx = some (ix2 s j)
      ↔ (idx (ix2 n (0 : Fin 1))).toInt = (s.val : Int) ∧ j' = j := by
  have hst0 := start_zero d huw hsd hiv idx n j'
  have hst1 := start_one d hsd idx (ix2 n j')
  have hw0 := window_zero d hiw (ix2 n j')
  have hw1 : d.window (ix2 n j') 1 = j'.val := window_one d huw hiw (ix2 n j')
  have hK : (⟨2, ![K, D]⟩ : Shape).size (0 : Fin 2) = K := rfl
  have hD : (⟨2, ![K, D]⟩ : Shape).size (1 : Fin 2) = D := rfl
  have hs := s.isLt
  have hj := j.isLt
  have hj' := j'.isLt
  unfold ScatterDims.resultIdx?
  split
  · next h =>
    rw [Option.some.injEq]
    constructor
    · intro e
      have e0 := congrArg (fun f => (f (0 : Fin 2)).val) e
      have e1 := congrArg (fun f => (f (1 : Fin 2)).val) e
      simp only [hst0, hst1, hw0, hw1] at e0 e1
      change ((idx (ix2 n (0 : Fin 1))).toInt + ((0 : Nat) : Int)).toNat = s.val at e0
      change ((0 : Int) + ((j'.val : Nat) : Int)).toNat = j.val at e1
      have h0 := h 0
      rw [hst0, hw0] at h0
      exact ⟨by omega, Fin.ext (by omega)⟩
    · rintro ⟨e, rfl⟩
      funext a
      match a with
      | ⟨0, _⟩ =>
        apply Fin.ext
        show (d.start (ix2 n j') idx 0 + ((d.window (ix2 n j') 0 : Nat) : Int)).toNat = s.val
        rw [hst0, hw0]; omega
      | ⟨1, _⟩ =>
        apply Fin.ext
        show (d.start (ix2 n j') idx 1 + ((d.window (ix2 n j') 1 : Nat) : Int)).toNat = j'.val
        rw [hst1, hw1]; omega
  · next h =>
    constructor
    · intro e; exact absurd e (by simp)
    · rintro ⟨e, rfl⟩
      exfalso
      apply h
      rw [Fin.forall_fin_two]
      refine ⟨?_, ?_⟩
      · rw [hst0, hw0, hK, e]; omega
      · rw [hst1, hw1, hD]; omega

-- A scatter-add of rows read at an entry: the sum over the update rows sent to that row.
theorem scatterAdd_rows_apply {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![K, D]⟩ .f32) (idx : IVec ⟨2, ![N, 1]⟩ w) (upd : FVec Ideal ⟨2, ![N, D]⟩ .f32)
    (s : Fin K) (j : Fin D) :
    Host.scatterAdd (F := Ideal) d x idx upd (ix2 s j)
      = x (ix2 s j) + ∑ n : Fin N, if (idx (ix2 n (0 : Fin 1))).toInt = (s.val : Int) then upd (ix2 n j) else 0 := by
  show Ideal.hostScatterAdd d x idx upd (ix2 s j) = _
  unfold Ideal.hostScatterAdd
  congr 1

  rw [Finset.sum_filter, sum_idx2]
  refine Finset.sum_congr rfl fun n _ => ?_
  simp only [resultIdx?_eq_some_iff d huw hiw hsd hiv idx n _ s j]

  by_cases hA : (idx (ix2 n (0 : Fin 1))).toInt = (s.val : Int)
  · simp only [hA, true_and]
    rw [Finset.sum_ite_eq']
    simp
  · simp [hA]

end Idealize.ShloMosaic.SegmentRows

end
-- ==== Proof.LibScatterVec.lean ====
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Idealize.ShloMosaic.ScatterVec

open Idealize.ShloMosaic Idealize.ShloMosaic.ValueIdx

private theorem start_zero {K N w : Nat} (d : ScatterDims ⟨1, ![K]⟩ ⟨2, ![N, 1]⟩ ⟨1, ![N]⟩)
    (hsd : d.scatterDimsToOperandDims = [0]) (hiv : d.indexVectorDim = 1)
    (idx : IVec ⟨2, ![N, 1]⟩ w) (n : Fin N) :
    d.start (ix1 n) idx 0 = (idx (ix2 n (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>

    unfold ScatterDims.siIdx
    rw [dif_neg (by rw [hiv]; simp)]
    unfold ScatterDims.siCoord
    apply Fin.ext
    simp only [Fin.val_cast]
    have e : ∀ X : Fin 1, ((ix1 n : (⟨1, ![N]⟩ : Shape).Idx) X).val = n.val := fun X => by
      have hX : X = 0 := Subsingleton.elim _ _
      subst hX; rfl
    exact e _
  | ⟨1, _⟩ =>

    unfold ScatterDims.siIdx
    rw [dif_pos (by rw [hiv])]
    apply Fin.ext
    show List.idxOf (0 : Fin 1) d.scatterDimsToOperandDims = 0
    rw [hsd]; simp

private theorem window_zero {K N : Nat} (d : ScatterDims ⟨1, ![K]⟩ ⟨2, ![N, 1]⟩ ⟨1, ![N]⟩)
    (hiw : d.insertedWindowDims = [0]) (i : (⟨1, ![N]⟩ : Shape).Idx) :
    d.window i 0 = 0 := by
  unfold ScatterDims.window
  rw [dif_neg]
  simp [ScatterDims.sKept, Shape.kept, hiw]

theorem resultIdx?_eq_some_iff {K N w : Nat} (d : ScatterDims ⟨1, ![K]⟩ ⟨2, ![N, 1]⟩ ⟨1, ![N]⟩)
    (hiw : d.insertedWindowDims = [0])
    (hsd : d.scatterDimsToOperandDims = [0]) (hiv : d.indexVectorDim = 1)
    (idx : IVec ⟨2, ![N, 1]⟩ w) (n : Fin N) (s : Fin K) :
    d.resultIdx? (ix1 n) idx = some (ix1 s) ↔ (idx (ix2 n (0 : Fin 1))).toInt = (s.val : Int) := by
  have hst0 := start_zero d hsd hiv idx n
  have hw0 := window_zero d hiw (ix1 n)
  have hK : (⟨1, ![K]⟩ : Shape).size (0 : Fin 1) = K := rfl
  have hs := s.isLt
  unfold ScatterDims.resultIdx?
  split
  · next h =>
    rw [Option.some.injEq]
    constructor
    · intro e
      have e0 := congrArg (fun f => (f (0 : Fin 1)).val) e
      simp only [hst0, hw0] at e0
      change ((idx (ix2 n (0 : Fin 1))).toInt + ((0 : Nat) : Int)).toNat = s.val at e0
      have h0 := h 0
      rw [hst0, hw0] at h0
      omega
    · intro e
      funext a
      match a with
      | ⟨0, _⟩ =>
        apply Fin.ext
        show (d.start (ix1 n) idx 0 + ((d.window (ix1 n) 0 : Nat) : Int)).toNat = s.val
        rw [hst0, hw0]; omega
  · next h =>
    constructor
    · intro e; exact absurd e (by simp)
    · intro e
      exfalso
      apply h
      intro a
      have ha : a = 0 := Subsingleton.elim _ _
      subst ha
      rw [hst0, hw0, hK, e]; omega

-- A scatter-add of scalars read at an entry: the sum of the updates whose index is that entry.
theorem scatterAdd_vec_apply {K N w : Nat} (d : ScatterDims ⟨1, ![K]⟩ ⟨2, ![N, 1]⟩ ⟨1, ![N]⟩)
    (_huw : d.updateWindowDims = []) (hiw : d.insertedWindowDims = [0])
    (hsd : d.scatterDimsToOperandDims = [0]) (hiv : d.indexVectorDim = 1)
    (x : FVec Ideal ⟨1, ![K]⟩ .f32) (idx : IVec ⟨2, ![N, 1]⟩ w) (upd : FVec Ideal ⟨1, ![N]⟩ .f32)
    (s : Fin K) :
    Host.scatterAdd (F := Ideal) d x idx upd (ix1 s)
      = x (ix1 s) + ∑ n : Fin N, if (idx (ix2 n (0 : Fin 1))).toInt = (s.val : Int) then upd (ix1 n) else 0 := by
  show Ideal.hostScatterAdd d x idx upd (ix1 s) = _
  unfold Ideal.hostScatterAdd
  congr 1

  rw [Finset.sum_filter, ← Equiv.sum_comp (idxEquiv1 (n := N)).symm]
  refine Finset.sum_congr rfl fun n _ => ?_
  show (if d.resultIdx? (ix1 n) idx = some (ix1 s) then upd (ix1 n) else 0) = _
  simp only [resultIdx?_eq_some_iff d hiw hsd hiv idx n s]

end Idealize.ShloMosaic.ScatterVec

end
-- ==== Proof.LibSumSplit.lean ====
import Mathlib.Algebra.BigOperators.Fin
import Mathlib.Logic.Equiv.Fin.Basic

open scoped BigOperators

namespace Cert.SumSplit

theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

-- A sum over a·b indices is the double sum over a runs of b consecutive indices.
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KI.PoolMath.lean ====
import proofs.«415776_j70411693851060_1_alg».proof.Proof.Gen.KernelIdeal.Skeleton
import proofs.«415776_j70411693851060_1_alg».proof.Proof.Gen.ReferenceIdeal
import proofs.«415776_j70411693851060_1_alg».proof.Proof.LibSegmentRows
import proofs.«415776_j70411693851060_1_alg».proof.Proof.LibScatterVec
import proofs.«415776_j70411693851060_1_alg».proof.Proof.LibSumSplit
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

set_option maxRecDepth 16384

noncomputable section

open scoped BigOperators

namespace Cert.KernelIdeal.PoolMath

open Cert.KernelIdeal Cert.KernelIdeal.Gen
open Idealize.ShloMosaic Idealize.ShloMosaic.ValueIdx

theorem lhs_pool_0 (i : S32x128.Idx) (q : dot_S32x8000_S8000x128_S32x128_1_0_0_1_n_n.contr.Idx) :
    (dot_S32x8000_S8000x128_S32x128_1_0_0_1_n_n.lhsIdx i q 0).val = (i 0).val := by
  unfold DotDims.lhsIdx
  rw [dif_neg (show ¬(0 : Fin S32x8000.rank) ∈ dot_S32x8000_S8000x128_S32x128_1_0_0_1_n_n.lhsBatch by decide),
    dif_pos (show (0 : Fin S32x8000.rank) ∈ dot_S32x8000_S8000x128_S32x128_1_0_0_1_n_n.lhsNonContracting by decide)]
  rfl
theorem lhs_pool_1 (i : S32x128.Idx) (q : dot_S32x8000_S8000x128_S32x128_1_0_0_1_n_n.contr.Idx) :
    (dot_S32x8000_S8000x128_S32x128_1_0_0_1_n_n.lhsIdx i q 1).val = (q ⟨0, by decide⟩).val :=
  dot_S32x8000_S8000x128_S32x128_1_0_0_1_n_n.lhsIdx_val_of_single rfl i q

theorem rhs_pool_0 (i : S32x128.Idx) (q : dot_S32x8000_S8000x128_S32x128_1_0_0_1_n_n.contr.Idx) :
    (dot_S32x8000_S8000x128_S32x128_1_0_0_1_n_n.rhsIdx i q 0).val = (q ⟨0, by decide⟩).val :=
  dot_S32x8000_S8000x128_S32x128_1_0_0_1_n_n.rhsIdx_val_of_single rfl i q
theorem rhs_pool_1 (i : S32x128.Idx) (q : dot_S32x8000_S8000x128_S32x128_1_0_0_1_n_n.contr.Idx) :
    (dot_S32x8000_S8000x128_S32x128_1_0_0_1_n_n.rhsIdx i q 1).val = (i 1).val := by
  unfold DotDims.rhsIdx
  rw [dif_neg (show ¬(1 : Fin S8000x128.rank) ∈ dot_S32x8000_S8000x128_S32x128_1_0_0_1_n_n.rhsBatch by decide),
    dif_pos (show (1 : Fin S8000x128.rank) ∈ dot_S32x8000_S8000x128_S32x128_1_0_0_1_n_n.rhsNonContracting by decide)]
  rfl

theorem k5_pay1_apply (g : Fin 32) (f : Fin 128) : k5_pay1 (F := Ideal) (ix2 g f) = 0 := by
  unfold k5_pay1
  rw [shapeCast_self]
  show Ideal.ofBits .f32 0x00000000#32 = 0
  exact Ideal.ofBits_zero_f32

theorem k5_pay2_apply (ob : Vec Ideal S8000x32 .f32) (hb : Vec Ideal S8000x128 .f32) (a : Vec Ideal S32x128 .f32)
    (g : Fin 32) (f : Fin 128) :
    k5_pay2 (F := Ideal) ob hb a (ix2 g f) = a (ix2 g f) + ∑ r : Fin 8000, ob (ix2 r g) * hb (ix2 r f) := by
  unfold k5_pay2
  simp only [shapeCast_self]
  rw [addf_apply]
  simp only [matmul]
  rw [Ideal.matmul_constant_zero_apply,
    ← Equiv.sum_comp (contrEquiv1 dot_S32x8000_S8000x128_S32x128_1_0_0_1_n_n 8000 rfl rfl).symm]
  congr 1
  refine Finset.sum_congr rfl fun k _ => ?_
  have hk := contrEquiv1_symm_val dot_S32x8000_S8000x128_S32x128_1_0_0_1_n_n 8000 rfl rfl k
  have el : dot_S32x8000_S8000x128_S32x128_1_0_0_1_n_n.lhsIdx (ix2 g f)
      ((contrEquiv1 dot_S32x8000_S8000x128_S32x128_1_0_0_1_n_n 8000 rfl rfl).symm k) = ix2 g k :=
    funext fun a => Fin.ext (by
      match a with
      | ⟨0, _⟩ => exact lhs_pool_0 _ _
      | ⟨1, _⟩ => exact (lhs_pool_1 _ _).trans hk)
  have er : dot_S32x8000_S8000x128_S32x128_1_0_0_1_n_n.rhsIdx (ix2 g f)
      ((contrEquiv1 dot_S32x8000_S8000x128_S32x128_1_0_0_1_n_n 8000 rfl rfl).symm k) = ix2 k f :=
    funext fun a => Fin.ext (by
      match a with
      | ⟨0, _⟩ => exact (rhs_pool_0 _ _).trans hk
      | ⟨1, _⟩ => exact rhs_pool_1 _ _)
  rw [el, er, transpose_ix2_apply, truncf_apply, truncf_apply]

-- Rows 8000 t … 8000 t + 7999 of an array of 40000 rows.
def rowBlock {D : ℕ} (x : Vec Ideal ⟨2, ![40000, D]⟩ .f32) (t : Fin 5) : Vec Ideal ⟨2, ![8000, D]⟩ .f32 :=
  fun y => x (ix2 ⟨8000 * t.val + (y 0).val, by have := t.isLt; have := idx2_lt0 y; omega⟩ (y 1))

theorem rowBlock_apply {D : ℕ} (x : Vec Ideal ⟨2, ![40000, D]⟩ .f32) (t : Fin 5) (r : Fin 8000) (j : Fin D) :
    rowBlock x t (ix2 r j) = x (ix2 ⟨8000 * t.val + r.val, Cert.SumSplit.lt_of_run (a := 5) rfl t r⟩ j) := rfl

-- The running sum over the first n + 1 row blocks, as the body forms it.
def accAt (ohB : Fin 5 → Vec Ideal S8000x32 .f32) (hB : Fin 5 → Vec Ideal S8000x128 .f32) :
    (n : ℕ) → n < 5 → Vec Ideal S32x128 .f32
  | 0, _ => k5_pay2 (ohB 0) (hB 0) (k5_pay1 (F := Ideal))
  | n + 1, hn => k5_pay2 (ohB ⟨n + 1, hn⟩) (hB ⟨n + 1, hn⟩) (accAt ohB hB n (by omega))

theorem accAt_zero (ohB : Fin 5 → Vec Ideal S8000x32 .f32) (hB : Fin 5 → Vec Ideal S8000x128 .f32) (h0 : 0 < 5) :
    accAt ohB hB 0 h0 = k5_pay2 (ohB 0) (hB 0) (k5_pay1 (F := Ideal)) := rfl

theorem accAt_succ (ohB : Fin 5 → Vec Ideal S8000x32 .f32) (hB : Fin 5 → Vec Ideal S8000x128 .f32) (n : ℕ) (hn : n + 1 < 5) :
    accAt ohB hB (n + 1) hn = k5_pay2 (ohB ⟨n + 1, hn⟩) (hB ⟨n + 1, hn⟩) (accAt ohB hB n (by omega)) := rfl

theorem accAt_apply_partial (ohB : Fin 5 → Vec Ideal S8000x32 .f32) (hB : Fin 5 → Vec Ideal S8000x128 .f32)
    (g : Fin 32) (f : Fin 128) : ∀ (n : ℕ) (hn : n < 5),
    accAt ohB hB n hn (ix2 g f)
      = ∑ t : Fin (n + 1), ∑ r : Fin 8000, ohB ⟨t.val, by have := t.isLt; omega⟩ (ix2 r g) * hB ⟨t.val, by have := t.isLt; omega⟩ (ix2 r f)
  | 0, _ => by
    rw [accAt_zero, k5_pay2_apply, k5_pay1_apply, zero_add, Fin.sum_univ_one]
    rfl
  | n + 1, hn => by
    rw [accAt_succ, k5_pay2_apply, accAt_apply_partial ohB hB g f n (by omega), Fin.sum_univ_castSucc (n := n + 1)]
    rfl

theorem accAt_last_apply (ohB : Fin 5 → Vec Ideal S8000x32 .f32) (hB : Fin 5 → Vec Ideal S8000x128 .f32)
    (g : Fin 32) (f : Fin 128) :
    accAt ohB hB 4 (by decide) (ix2 g f) = ∑ t : Fin 5, ∑ r : Fin 8000, ohB t (ix2 r g) * hB t (ix2 r f) :=
  accAt_apply_partial ohB hB g f 4 (by decide)

theorem accAt_last_of_blocks (oh : Vec Ideal S40000x32 .f32) (h : Vec Ideal S40000x128 .f32)
    (ohB : Fin 5 → Vec Ideal S8000x32 .f32) (hB : Fin 5 → Vec Ideal S8000x128 .f32)
    (hoh : ∀ (t : Fin 5) (r : Fin 8000) (g : Fin 32),
      ohB t (ix2 r g) = oh (ix2 ⟨8000 * t.val + r.val, Cert.SumSplit.lt_of_run (a := 5) rfl t r⟩ g))
    (hh : ∀ (t : Fin 5) (r : Fin 8000) (f : Fin 128),
      hB t (ix2 r f) = h (ix2 ⟨8000 * t.val + r.val, Cert.SumSplit.lt_of_run (a := 5) rfl t r⟩ f))
    (g : Fin 32) (f : Fin 128) :
    accAt ohB hB 4 (by decide) (ix2 g f) = ∑ n : Fin 40000, oh (ix2 n g) * h (ix2 n f) := by
  rw [accAt_last_apply, Cert.SumSplit.sum_split 5 8000 40000 rfl (fun n => oh (ix2 n g) * h (ix2 n f))]
  refine Finset.sum_congr rfl fun t _ => Finset.sum_congr rfl fun r _ => ?_
  rw [hoh, hh]

-- After the fifth block the running sum is the sum over all 40000 rows.
theorem accAt_last_rowBlock (oh : Vec Ideal S40000x32 .f32) (h : Vec Ideal S40000x128 .f32) (g : Fin 32) (f : Fin 128) :
    accAt (rowBlock oh) (rowBlock h) 4 (by decide) (ix2 g f) = ∑ n : Fin 40000, oh (ix2 n g) * h (ix2 n f) :=
  accAt_last_of_blocks oh h (rowBlock oh) (rowBlock h) (fun _ _ _ => rfl) (fun _ _ _ => rfl) g f

theorem col_apply (hb : S40000.BroadcastsInDim S40000x1 (![0] : Fin 1 → Fin S40000x1.rank)) (batch : IVec S40000 32) (n : Fin 40000) :
    broadcastInDim S40000x1 ![0] hb batch (ix2 n (0 : Fin 1)) = batch (ix1 n) :=
  broadcastInDim_apply _ hb batch _ (ix1 n) (fun a => match a with
    | ⟨0, _⟩ => by show n.val = if (40000 : Nat) = 1 then 0 else n.val; rw [if_neg (by decide)])

def oneHot (batch : IVec S40000 32) : FVec Ideal S40000x32 .f32 :=
  uitofp .f32 (cmpi .eq
    (broadcastInDim S40000x32 ![0, 1] bcast_S40000x1_S40000x32_0_1 (broadcastInDim S40000x1 ![0] bcast_S40000_S40000x1_0 batch))
    (broadcastInDim S40000x32 ![0, 1] bcast_S1x32_S40000x32_0_1 (broadcastInDim S1x32 ![1] bcast_S32_S1x32_1 (iotaInDim S32 32 0))))

theorem oneHot_apply (batch : IVec S40000 32) (n : Fin 40000) (g : Fin 32) :
    oneHot batch (ix2 n g) = if (batch (ix1 n)).toInt = (g.val : Int) then 1 else 0 := by
  have e1 : broadcastInDim S40000x32 ![0, 1] bcast_S40000x1_S40000x32_0_1
      (broadcastInDim S40000x1 ![0] bcast_S40000_S40000x1_0 batch) (ix2 n g) = batch (ix1 n) := by
    rw [broadcastInDim_apply _ bcast_S40000x1_S40000x32_0_1 _ (ix2 n g) (ix2 n (0 : Fin 1)) (fun a => match a with
      | ⟨0, _⟩ => by show n.val = if (40000 : Nat) = 1 then 0 else n.val; rw [if_neg (by decide)]
      | ⟨1, _⟩ => by show 0 = if (1 : Nat) = 1 then 0 else g.val; rw [if_pos rfl])]
    exact col_apply _ batch n
  have e2 : broadcastInDim S40000x32 ![0, 1] bcast_S1x32_S40000x32_0_1
      (broadcastInDim S1x32 ![1] bcast_S32_S1x32_1 (iotaInDim S32 32 0)) (ix2 n g) = BitVec.ofNat 32 g.val := by
    rw [broadcastInDim_apply _ bcast_S1x32_S40000x32_0_1 _ (ix2 n g) (ix2 (0 : Fin 1) g) (fun a => match a with
      | ⟨0, _⟩ => by show 0 = if (1 : Nat) = 1 then 0 else n.val; rw [if_pos rfl]
      | ⟨1, _⟩ => by show g.val = if (32 : Nat) = 1 then 0 else g.val; rw [if_neg (by decide)]),
      broadcastInDim_apply _ bcast_S32_S1x32_1 _ (ix2 (0 : Fin 1) g) (ix1 g) (fun a => match a with
      | ⟨0, _⟩ => by show g.val = if (32 : Nat) = 1 then 0 else g.val; rw [if_neg (by decide)])]
    rfl
  unfold oneHot
  simp only [uitofp, cmpi]
  rw [e1, e2]
  show (((IntOp.cmpi .eq (batch (ix1 n)) (BitVec.ofNat 32 g.val)).toNat : ℝ) : EReal) = _
  by_cases hA : (batch (ix1 n)).toInt = (g.val : Int)
  · have hb : batch (ix1 n) = BitVec.ofNat 32 g.val :=
      BitVec.toInt_inj.mp (hA.trans (StableHlo.Predicate.toInt_ofNat_small g.val (by have := g.isLt; omega)).symm)
    rw [if_pos hA, StableHlo.Predicate.cmpi_eq_iff.mpr hb]
    norm_num
  · have hb : ¬ batch (ix1 n) = BitVec.ofNat 32 g.val := fun e =>
      hA (by rw [e]; exact StableHlo.Predicate.toInt_ofNat_small g.val (by have := g.isLt; omega))
    rw [if_neg hA, eq_zero_of_ne_one (fun e => hb (StableHlo.Predicate.cmpi_eq_iff.mp e))]
    norm_num

theorem oneHot_mul (batch : IVec S40000 32) (n : Fin 40000) (g : Fin 32) (x : EReal) :
    oneHot batch (ix2 n g) * x = if (batch (ix1 n)).toInt = (g.val : Int) then x else 0 := by
  rw [oneHot_apply]
  split
  · exact one_mul x
  · exact zero_mul x

-- Summing the rows a one-hot column selects is the scatter-add of the rows at their group ids; ids outside 0..31 select nothing and are dropped by both.
theorem oneHot_sum_eq_scatter (hz : Cert.ReferenceIdeal.S_.BroadcastsInDim Cert.ReferenceIdeal.S32x128 (![] : Fin 0 → Fin Cert.ReferenceIdeal.S32x128.rank))
    (hb : Cert.ReferenceIdeal.S40000.BroadcastsInDim Cert.ReferenceIdeal.S40000x1 (![0] : Fin 1 → Fin Cert.ReferenceIdeal.S40000x1.rank))
    (batch : IVec S40000 32) (h : FVec Ideal S40000x128 .f32) (g : Fin 32) (f : Fin 128) :
    ∑ n : Fin 40000, oneHot batch (ix2 n g) * h (ix2 n f)
      = Host.scatterAdd (F := Ideal) Cert.ReferenceIdeal.scatter_S32x128_S40000x1_S40000x128_1_0_0_1
          (broadcastInDim Cert.ReferenceIdeal.S32x128 ![] hz (constant (F := Ideal) Cert.ReferenceIdeal.S_ .f32 0x00000000#32))
          (broadcastInDim Cert.ReferenceIdeal.S40000x1 ![0] hb batch) h (ix2 g f) := by
  rw [SegmentRows.scatterAdd_rows_apply Cert.ReferenceIdeal.scatter_S32x128_S40000x1_S40000x128_1_0_0_1 rfl rfl rfl rfl,
    broadcastInDim_scalar_apply, constant_apply, Ideal.ofBits_zero_f32, zero_add]
  refine Finset.sum_congr rfl fun n _ => ?_
  rw [oneHot_mul, col_apply hb batch n]

theorem shapeCast_col_apply {α : Type} (v : S32.Idx → α) (hc : S32.ShapeCasts S32x1) (g : Fin 32) :
    shapeCast S32x1 v hc (ix2 g (0 : Fin 1)) = v (ix1 g) :=
  shapeCast_apply v hc _ (ix1 g) (by
    rw [Shape.rowMajor_val_one, Shape.rowMajor_val_two]
    show g.val = g.val * 1 + 0
    omega)

theorem reduces_rows : S40000x32.Reduces [0] S32 := by decide

def cntK (batch : IVec S40000 32) : FVec Ideal S32x1 .f32 :=
  maximumf
    (shapeCast S32x1 (Host.reduceAdd (oneHot batch) (constant (F := Ideal) S_ .f32 0x00000000#32) reducesTo_S40000x32_S32_d0 h_S_)
      shapeCasts_S32_S32x1)
    (broadcastInDim S32x1 ![] bcast_S_S32x1 (constant (F := Ideal) S_ .f32 0x3F800000#32))

def countsR (batch : IVec Cert.ReferenceIdeal.S40000 32) : FVec Ideal Cert.ReferenceIdeal.S32 .f32 :=
  maximumf
    (Host.scatterAdd (F := Ideal) Cert.ReferenceIdeal.scatter_S32_S40000x1_S40000_n_0_0_1
      (broadcastInDim Cert.ReferenceIdeal.S32 ![] Cert.ReferenceIdeal.Gen.bcast_S_S32 (constant (F := Ideal) Cert.ReferenceIdeal.S_ .f32 0x00000000#32))
      (broadcastInDim Cert.ReferenceIdeal.S40000x1 ![0] Cert.ReferenceIdeal.Gen.bcast_S40000_S40000x1_0 batch)
      (broadcastInDim Cert.ReferenceIdeal.S40000 ![] Cert.ReferenceIdeal.Gen.bcast_S_S40000 (constant (F := Ideal) Cert.ReferenceIdeal.S_ .f32 0x3F800000#32)))
    (broadcastInDim Cert.ReferenceIdeal.S32 ![] Cert.ReferenceIdeal.Gen.bcast_S_S32 (constant (F := Ideal) Cert.ReferenceIdeal.S_ .f32 0x3F800000#32))

theorem cntK_apply (batch : IVec S40000 32) (g : Fin 32) :
    cntK batch (ix2 g (0 : Fin 1)) = max (0 + ∑ n : Fin 40000, if (batch (ix1 n)).toInt = (g.val : Int) then (1 : EReal) else 0) 1 := by
  unfold cntK
  rw [maximumf_apply, shapeCast_col_apply, broadcastInDim_scalar_apply, constant_apply, Ideal.ofBits_one_f32, hostReduceAdd_apply,
    Ideal.hostReduceAdd_single reducesTo_S40000x32_S32_d0 reduces_rows, constant_apply, Ideal.ofBits_zero_f32]
  refine congrArg (fun s : EReal => max (0 + s) 1) (Finset.sum_congr rfl fun n _ => ?_)
  refine Eq.trans (congrArg (oneHot batch) (funext fun a => Fin.ext ?_)) (oneHot_apply batch n g)
  match a with
  | ⟨0, _⟩ => rfl
  | ⟨1, _⟩ => rfl

theorem countsR_apply (batch : IVec S40000 32) (g : Fin 32) :
    countsR batch (ix1 g) = max (0 + ∑ n : Fin 40000, if (batch (ix1 n)).toInt = (g.val : Int) then (1 : EReal) else 0) 1 := by
  unfold countsR
  rw [maximumf_apply, ScatterVec.scatterAdd_vec_apply Cert.ReferenceIdeal.scatter_S32_S40000x1_S40000_n_0_0_1 rfl rfl rfl rfl,
    broadcastInDim_scalar_apply, broadcastInDim_scalar_apply, constant_apply, constant_apply, Ideal.ofBits_one_f32, Ideal.ofBits_zero_f32]
  refine congrArg (fun s : EReal => max (0 + s) 1) (Finset.sum_congr rfl fun n _ => ?_)
  rw [col_apply Cert.ReferenceIdeal.Gen.bcast_S40000_S40000x1_0 batch n, broadcastInDim_scalar_apply, constant_apply, Ideal.ofBits_one_f32]

theorem cntK_eq_countsR (batch : IVec S40000 32) (g : Fin 32) : cntK batch (ix2 g (0 : Fin 1)) = countsR batch (ix1 g) := by
  rw [cntK_apply, countsR_apply]

theorem broadcastTo_col_apply {α : Type} (v : S32x1.Idx → α) (hb : S32x1.Broadcasts S32x128) (g : Fin 32) (f : Fin 128) :
    broadcastTo S32x128 v hb (ix2 g f) = v (ix2 g (0 : Fin 1)) :=
  broadcastTo_apply v hb (ix2 g f) (ix2 g (0 : Fin 1)) fun ax => by
    match ax with
    | ⟨0, _⟩ => show g.val = if (32 : Nat) = 1 then 0 else g.val; rw [if_neg (by decide)]
    | ⟨1, _⟩ => show 0 = if (1 : Nat) = 1 then 0 else f.val; rw [if_pos rfl]

theorem k5_pay3_apply (acc : Vec Ideal S32x128 .f32) (cnt : Vec Ideal S32x1 .f32) (g : Fin 32) (f : Fin 128) :
    k5_pay3 (F := Ideal) acc cnt (ix2 g f) = Ideal.div (acc (ix2 g f)) (cnt (ix2 g (0 : Fin 1))) := by
  unfold k5_pay3
  rw [divf_apply, shapeCast_self, broadcastTo_col_apply]

theorem lhs_lin_0 (i : S32x6.Idx) (q : dot_S32x128_S128x6_S32x6_1_0_0_1_n_n.contr.Idx) :
    (dot_S32x128_S128x6_S32x6_1_0_0_1_n_n.lhsIdx i q 0).val = (i 0).val := by
  unfold DotDims.lhsIdx
  rw [dif_neg (show ¬(0 : Fin S32x128.rank) ∈ dot_S32x128_S128x6_S32x6_1_0_0_1_n_n.lhsBatch by decide),
    dif_pos (show (0 : Fin S32x128.rank) ∈ dot_S32x128_S128x6_S32x6_1_0_0_1_n_n.lhsNonContracting by decide)]
  rfl
theorem lhs_lin_1 (i : S32x6.Idx) (q : dot_S32x128_S128x6_S32x6_1_0_0_1_n_n.contr.Idx) :
    (dot_S32x128_S128x6_S32x6_1_0_0_1_n_n.lhsIdx i q 1).val = (q ⟨0, by decide⟩).val :=
  dot_S32x128_S128x6_S32x6_1_0_0_1_n_n.lhsIdx_val_of_single rfl i q

theorem rhs_lin_0 (i : S32x6.Idx) (q : dot_S32x128_S128x6_S32x6_1_0_0_1_n_n.contr.Idx) :
    (dot_S32x128_S128x6_S32x6_1_0_0_1_n_n.rhsIdx i q 0).val = (q ⟨0, by decide⟩).val :=
  dot_S32x128_S128x6_S32x6_1_0_0_1_n_n.rhsIdx_val_of_single rfl i q
theorem rhs_lin_1 (i : S32x6.Idx) (q : dot_S32x128_S128x6_S32x6_1_0_0_1_n_n.contr.Idx) :
    (dot_S32x128_S128x6_S32x6_1_0_0_1_n_n.rhsIdx i q 1).val = (i 1).val := by
  unfold DotDims.rhsIdx
  rw [dif_neg (show ¬(1 : Fin S128x6.rank) ∈ dot_S32x128_S128x6_S32x6_1_0_0_1_n_n.rhsBatch by decide),
    dif_pos (show (1 : Fin S128x6.rank) ∈ dot_S32x128_S128x6_S32x6_1_0_0_1_n_n.rhsNonContracting by decide)]
  rfl

theorem lin_sum {φ₁ φ₂ : FTy} (l : FVec Ideal S32x128 φ₁) (r : FVec Ideal S128x6 φ₂) (g : Fin 32) (c : Fin 6) :
    ∑ q : dot_S32x128_S128x6_S32x6_1_0_0_1_n_n.contr.Idx,
        l (dot_S32x128_S128x6_S32x6_1_0_0_1_n_n.lhsIdx (ix2 g c) q) * r (dot_S32x128_S128x6_S32x6_1_0_0_1_n_n.rhsIdx (ix2 g c) q)
      = ∑ k : Fin 128, l (ix2 g k) * r (ix2 k c) := by
  rw [← Equiv.sum_comp (contrEquiv1 dot_S32x128_S128x6_S32x6_1_0_0_1_n_n 128 rfl rfl).symm]
  refine Finset.sum_congr rfl fun k _ => ?_
  have hk := contrEquiv1_symm_val dot_S32x128_S128x6_S32x6_1_0_0_1_n_n 128 rfl rfl k
  have el : dot_S32x128_S128x6_S32x6_1_0_0_1_n_n.lhsIdx (ix2 g c)
      ((contrEquiv1 dot_S32x128_S128x6_S32x6_1_0_0_1_n_n 128 rfl rfl).symm k) = ix2 g k :=
    funext fun a => Fin.ext (by
      match a with
      | ⟨0, _⟩ => exact lhs_lin_0 _ _
      | ⟨1, _⟩ => exact (lhs_lin_1 _ _).trans hk)
  have er : dot_S32x128_S128x6_S32x6_1_0_0_1_n_n.rhsIdx (ix2 g c)
      ((contrEquiv1 dot_S32x128_S128x6_S32x6_1_0_0_1_n_n 128 rfl rfl).symm k) = ix2 k c :=
    funext fun a => Fin.ext (by
      match a with
      | ⟨0, _⟩ => exact (rhs_lin_0 _ _).trans hk
      | ⟨1, _⟩ => exact rhs_lin_1 _ _)
  rw [el, er]

theorem k5_pay4_apply (acc : Vec Ideal S32x128 .f32) (cnt : Vec Ideal S32x1 .f32) (linw : Vec Ideal S128x6 .f32) (linb : Vec Ideal S6 .f32)
    (g : Fin 32) (c : Fin 6) :
    k5_pay4 (F := Ideal) acc cnt linw linb (ix2 g c)
      = (∑ k : Fin 128, k5_pay3 (F := Ideal) acc cnt (ix2 g k) * linw (ix2 k c)) + linb (ix1 c) := by
  unfold k5_pay4
  rw [addf_apply]
  simp only [matmul]
  rw [Ideal.matmul_constant_zero_apply, lin_sum, broadcastTo_1b_ab_apply, shapeCast_a_1a_apply]
  refine congrArg (· + linb (ix1 c)) (Finset.sum_congr rfl fun k _ => ?_)
  rw [truncf_apply, truncf_apply]

def sumsR (batch : IVec Cert.ReferenceIdeal.S40000 32) (h : FVec Ideal Cert.ReferenceIdeal.S40000x128 .f32) : FVec Ideal Cert.ReferenceIdeal.S32x128 .f32 :=
  Host.scatterAdd (F := Ideal) Cert.ReferenceIdeal.scatter_S32x128_S40000x1_S40000x128_1_0_0_1
    (broadcastInDim Cert.ReferenceIdeal.S32x128 ![] Cert.ReferenceIdeal.Gen.bcast_S_S32x128 (constant (F := Ideal) Cert.ReferenceIdeal.S_ .f32 0x00000000#32))
    (broadcastInDim Cert.ReferenceIdeal.S40000x1 ![0] Cert.ReferenceIdeal.Gen.bcast_S40000_S40000x1_0 batch) h

def embR (batch : IVec Cert.ReferenceIdeal.S40000 32) (h : FVec Ideal Cert.ReferenceIdeal.S40000x128 .f32) : FVec Ideal Cert.ReferenceIdeal.S32x128 .f32 :=
  Host.divf (sumsR batch h)
    (broadcastInDim Cert.ReferenceIdeal.S32x128 ![0, 1] Cert.ReferenceIdeal.Gen.bcast_S32x1_S32x128_0_1
      (broadcastInDim Cert.ReferenceIdeal.S32x1 ![0] Cert.ReferenceIdeal.Gen.bcast_S32_S32x1_0 (countsR batch)))

def logitsR (batch : IVec Cert.ReferenceIdeal.S40000 32) (h : FVec Ideal Cert.ReferenceIdeal.S40000x128 .f32)
    (linw : FVec Ideal Cert.ReferenceIdeal.S128x6 .f32) (linb : FVec Ideal Cert.ReferenceIdeal.S6 .f32) : FVec Ideal Cert.ReferenceIdeal.S32x6 .f32 :=
  addf (Host.dotGeneral Cert.ReferenceIdeal.dot_S32x128_S128x6_S32x6_1_0_0_1_n_n none (embR batch h) linw)
    (broadcastInDim Cert.ReferenceIdeal.S32x6 ![0, 1] Cert.ReferenceIdeal.Gen.bcast_S1x6_S32x6_0_1
      (broadcastInDim Cert.ReferenceIdeal.S1x6 ![1] Cert.ReferenceIdeal.Gen.bcast_S6_S1x6_1 linb))

theorem embR_apply (batch : IVec S40000 32) (h : FVec Ideal S40000x128 .f32) (g : Fin 32) (f : Fin 128) :
    embR batch h (ix2 g f) = Ideal.div (sumsR batch h (ix2 g f)) (countsR batch (ix1 g)) := by
  unfold embR
  rw [hostDivf_apply,
    broadcastInDim_apply _ Cert.ReferenceIdeal.Gen.bcast_S32x1_S32x128_0_1 _ (ix2 g f) (ix2 g (0 : Fin 1)) (fun a => match a with
      | ⟨0, _⟩ => by show g.val = if (32 : Nat) = 1 then 0 else g.val; rw [if_neg (by decide)]
      | ⟨1, _⟩ => by show 0 = if (1 : Nat) = 1 then 0 else f.val; rw [if_pos rfl]),
    broadcastInDim_apply _ Cert.ReferenceIdeal.Gen.bcast_S32_S32x1_0 _ (ix2 g (0 : Fin 1)) (ix1 g) (fun a => match a with
      | ⟨0, _⟩ => by show g.val = if (32 : Nat) = 1 then 0 else g.val; rw [if_neg (by decide)])]

theorem logitsR_apply (batch : IVec S40000 32) (h : FVec Ideal S40000x128 .f32) (linw : FVec Ideal S128x6 .f32) (linb : FVec Ideal S6 .f32)
    (g : Fin 32) (c : Fin 6) :
    logitsR batch h linw linb (ix2 g c) = (∑ k : Fin 128, embR batch h (ix2 g k) * linw (ix2 k c)) + linb (ix1 c) := by
  unfold logitsR
  rw [addf_apply]
  simp only [Host.dotGeneral]
  rw [show FloatOps.dotGeneral Cert.ReferenceIdeal.dot_S32x128_S128x6_S32x6_1_0_0_1_n_n none .single (embR batch h) linw
      = FloatOps.dotGeneral dot_S32x128_S128x6_S32x6_1_0_0_1_n_n none .single (embR batch h) linw from rfl,
    Ideal.dotGeneral_apply, lin_sum,
    broadcastInDim_apply _ Cert.ReferenceIdeal.Gen.bcast_S1x6_S32x6_0_1 _ (ix2 g c) (ix2 (0 : Fin 1) c) (fun a => match a with
      | ⟨0, _⟩ => by show 0 = if (1 : Nat) = 1 then 0 else g.val; rw [if_pos rfl]
      | ⟨1, _⟩ => by show c.val = if (6 : Nat) = 1 then 0 else c.val; rw [if_neg (by decide)]),
    broadcastInDim_apply _ Cert.ReferenceIdeal.Gen.bcast_S6_S1x6_1 _ (ix2 (0 : Fin 1) c) (ix1 c) (fun a => match a with
      | ⟨0, _⟩ => by show c.val = if (6 : Nat) = 1 then 0 else c.val; rw [if_neg (by decide)])]

theorem k5_pay3_eq_embR (batch : IVec S40000 32) (h : FVec Ideal S40000x128 .f32) (acc : Vec Ideal S32x128 .f32) (cnt : Vec Ideal S32x1 .f32)
    (hacc : ∀ (g : Fin 32) (f : Fin 128), acc (ix2 g f) = ∑ n : Fin 40000, oneHot batch (ix2 n g) * h (ix2 n f))
    (hcnt : ∀ g : Fin 32, cnt (ix2 g (0 : Fin 1)) = cntK batch (ix2 g (0 : Fin 1))) :
    k5_pay3 (F := Ideal) acc cnt = embR batch h := by
  funext j
  obtain ⟨g, f, rfl⟩ : ∃ (g : Fin 32) (f : Fin 128), j = ix2 g f := ⟨j 0, j 1, eq_ix2 j⟩
  rw [k5_pay3_apply, embR_apply, hacc, hcnt, cntK_eq_countsR,
    oneHot_sum_eq_scatter Cert.ReferenceIdeal.Gen.bcast_S_S32x128 Cert.ReferenceIdeal.Gen.bcast_S40000_S40000x1_0]
  rfl

theorem k5_pay4_eq_logitsR (batch : IVec S40000 32) (h : FVec Ideal S40000x128 .f32) (acc : Vec Ideal S32x128 .f32) (cnt : Vec Ideal S32x1 .f32)
    (linw : Vec Ideal S128x6 .f32) (linb : Vec Ideal S6 .f32)
    (hacc : ∀ (g : Fin 32) (f : Fin 128), acc (ix2 g f) = ∑ n : Fin 40000, oneHot batch (ix2 n g) * h (ix2 n f))
    (hcnt : ∀ g : Fin 32, cnt (ix2 g (0 : Fin 1)) = cntK batch (ix2 g (0 : Fin 1))) :
    k5_pay4 (F := Ideal) acc cnt linw linb = logitsR batch h linw linb := by
  funext j
  obtain ⟨g, c, rfl⟩ : ∃ (g : Fin 32) (c : Fin 6), j = ix2 g c := ⟨j 0, j 1, eq_ix2 j⟩
  rw [k5_pay4_apply, logitsR_apply, k5_pay3_eq_embR batch h acc cnt hacc hcnt]

-- The kernel's pooled rows and logits are the reference's: group sums divided by group sizes, then the linear classifier.
theorem pool_emb (batch : IVec S40000 32) (h : FVec Ideal S40000x128 .f32)
    (ohB : Fin 5 → Vec Ideal S8000x32 .f32) (hB : Fin 5 → Vec Ideal S8000x128 .f32)
    (hoh : ∀ (t : Fin 5) (r : Fin 8000) (g : Fin 32),
      ohB t (ix2 r g) = oneHot batch (ix2 ⟨8000 * t.val + r.val, Cert.SumSplit.lt_of_run (a := 5) rfl t r⟩ g))
    (hh : ∀ (t : Fin 5) (r : Fin 8000) (f : Fin 128),
      hB t (ix2 r f) = h (ix2 ⟨8000 * t.val + r.val, Cert.SumSplit.lt_of_run (a := 5) rfl t r⟩ f)) :
    k5_pay3 (F := Ideal) (accAt ohB hB 4 (by decide)) (cntK batch) = embR batch h :=
  k5_pay3_eq_embR batch h _ _ (accAt_last_of_blocks (oneHot batch) h ohB hB hoh hh) (fun _ => rfl)

theorem pool_logits (batch : IVec S40000 32) (h : FVec Ideal S40000x128 .f32)
    (ohB : Fin 5 → Vec Ideal S8000x32 .f32) (hB : Fin 5 → Vec Ideal S8000x128 .f32)
    (linw : Vec Ideal S128x6 .f32) (linb : Vec Ideal S6 .f32)
    (hoh : ∀ (t : Fin 5) (r : Fin 8000) (g : Fin 32),
      ohB t (ix2 r g) = oneHot batch (ix2 ⟨8000 * t.val + r.val, Cert.SumSplit.lt_of_run (a := 5) rfl t r⟩ g))
    (hh : ∀ (t : Fin 5) (r : Fin 8000) (f : Fin 128),
      hB t (ix2 r f) = h (ix2 ⟨8000 * t.val + r.val, Cert.SumSplit.lt_of_run (a := 5) rfl t r⟩ f)) :
    k5_pay4 (F := Ideal) (accAt ohB hB 4 (by decide)) (cntK batch) linw linb = logitsR batch h linw linb :=
  k5_pay4_eq_logitsR batch h _ _ linw linb (accAt_last_of_blocks (oneHot batch) h ohB hB hoh hh) (fun _ => rfl)

end Cert.KernelIdeal.PoolMath

end
-- ==== Proof.KI.Val5.lean ====
import proofs.«415776_j70411693851060_1_alg».proof.Proof.KI.Reg5
import proofs.«415776_j70411693851060_1_alg».proof.Proof.KI.PoolMath
import proofs.«415776_j70411693851060_1_alg».proof.Proof.LibSumSplit
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Frame Cert.KernelIdeal.PoolMath
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

theorem row_lt5 (t : Fin cfg5.N) (r : Fin 8000) : 8000 * t.val + r.val < 40000 := by
  have hN : cfg5.N = 5 := N_5
  have := t.isLt
  have := r.isLt
  omega

theorem iblk5_0_apply (c : Dev nD) (t : Fin cfg5.N) (r : Fin 8000) (g : Fin 32) :
    iblk5 (F := Ideal) V c 0 t (ix2 r g) = V c main_v108 (ix2 ⟨8000 * t.val + r.val, row_lt5 t r⟩ g) := by
  obtain ⟨e0, e1, -⟩ := idx_facts5 t
  show V c main_v108 (((cfg5.win 0).blk t).view.emb (ix2 r g)) = _
  refine congrArg _ (funext fun a => Fin.ext ?_)
  match a with
  | ⟨0, _⟩ => show win5_0.index t (0 : Fin 2) * 8000 + 1 * r.val = 8000 * t.val + r.val; omega
  | ⟨1, _⟩ => show win5_0.index t (1 : Fin 2) * 32 + 1 * g.val = g.val; omega

theorem iblk5_1_apply (c : Dev nD) (t : Fin cfg5.N) (r : Fin 8000) (f : Fin 128) :
    iblk5 (F := Ideal) V c 1 t (ix2 r f) = V c main_v101 (ix2 ⟨8000 * t.val + r.val, row_lt5 t r⟩ f) := by
  obtain ⟨-, -, e0, e1, -⟩ := idx_facts5 t
  show V c main_v101 (((cfg5.win 1).blk t).view.emb (ix2 r f)) = _
  refine congrArg _ (funext fun a => Fin.ext ?_)
  match a with
  | ⟨0, _⟩ => show win5_1.index t (0 : Fin 2) * 8000 + 1 * r.val = 8000 * t.val + r.val; omega
  | ⟨1, _⟩ => show win5_1.index t (1 : Fin 2) * 128 + 1 * f.val = f.val; omega

theorem iblk5_2_eq (c : Dev nD) (t : Fin cfg5.N) : iblk5 (F := Ideal) V c 2 t = V c main_v112 := by
  obtain ⟨-, -, -, -, e0, e1, -⟩ := idx_facts5 t
  funext y
  show V c main_v112 (((cfg5.win 2).blk t).view.emb y) = V c main_v112 y
  refine congrArg _ (funext fun a => Fin.ext ?_)
  match a with
  | ⟨0, _⟩ => show win5_2.index t (0 : Fin 2) * 32 + 1 * (y 0).val = (y 0).val; omega
  | ⟨1, _⟩ => show win5_2.index t (1 : Fin 2) * 1 + 1 * (y 1).val = (y 1).val; omega

theorem iblk5_3_eq (c : Dev nD) (t : Fin cfg5.N) : iblk5 (F := Ideal) V c 3 t = V c main_arg15 := by
  obtain ⟨-, -, -, -, -, -, e0, e1, -⟩ := idx_facts5 t
  funext y
  show V c main_arg15 (((cfg5.win 3).blk t).view.emb y) = V c main_arg15 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 6 + 1 * (y 1).val = (y 1).val; omega

theorem iblk5_4_eq (c : Dev nD) (t : Fin cfg5.N) : iblk5 (F := Ideal) V c 4 t = V c main_arg16 := by
  obtain ⟨-, -, -, -, -, -, -, -, e0, -⟩ := idx_facts5 t
  funext y
  show V c main_arg16 (((cfg5.win 4).blk t).view.emb y) = V c main_arg16 y
  refine congrArg _ (funext fun a => Fin.ext ?_)
  match a with
  | ⟨0, _⟩ => show win5_4.index t (0 : Fin 1) * 6 + 1 * (y 0).val = (y 0).val; omega

def ohB5 (c : Dev nD) : Fin 5 → Vec Ideal S8000x32 .f32 := fun t => iblk5 (F := Ideal) V c 0 (t.cast N_5.symm)
def hB5 (c : Dev nD) : Fin 5 → Vec Ideal S8000x128 .f32 := fun t => iblk5 (F := Ideal) V c 1 (t.cast N_5.symm)

-- The region's running sum is the pure one, at the blocks of the one-hot matrix and of the features.
theorem acc5_eq_accAt (c : Dev nD) : ∀ (n : ℕ) (hn : n < cfg5.N) (hn' : n < 5),
    acc5 (F := Ideal) V c n hn = accAt (ohB5 V c) (hB5 V c) n hn'
  | 0, hn, hn' => rfl
  | n + 1, hn, hn' => by
    show k5_pay2 _ _ (acc5 (F := Ideal) V c n _) = k5_pay2 _ _ (accAt (ohB5 V c) (hB5 V c) n _)
    rw [acc5_eq_accAt c n (Nat.lt_of_succ_lt hn) (by omega)]
    rfl

theorem acc5_last_apply (c : Dev nD) (oh : Vec Ideal S40000x32 .f32) (h : Vec Ideal S40000x128 .f32)
    (hoh : V c main_v108 = oh) (hh : V c main_v101 = h) (g : Fin 32) (f : Fin 128) :
    acc5 (F := Ideal) V c 4 last5.isLt (ix2 g f) = ∑ n : Fin 40000, oh (ix2 n g) * h (ix2 n f) := by
  subst hoh; subst hh
  rw [acc5_eq_accAt V c 4 last5.isLt (by decide)]
  exact accAt_last_of_blocks (V c main_v108) (V c main_v101) (ohB5 V c) (hB5 V c)
    (fun t r g => iblk5_0_apply V c (t.cast N_5.symm) r g) (fun t r f => iblk5_1_apply V c (t.cast N_5.symm) r f) g f

theorem flushed5_5_eq (c : Dev nD) (t : Fin cfg5.N) :
    (dat5 (F := Ideal) V c).flushed 5 t = ((cfg5.win 5).blk t).view.read (Elt Ideal) (emb5 V c) := by
  show (cfg5.win 5).cut (grid5.coords t) ((dat5 (F := Ideal) V c).after 5 t) = _
  rw [after5_5]
  obtain ⟨-, -, -, -, -, -, -, -, -, e0, e1, -⟩ := idx_facts5 t
  funext j
  show emb5 V c j = emb5 V c (((cfg5.win 5).blk t).view.emb j)
  refine congrArg _ (funext fun a => Fin.ext ?_)
  match a with
  | ⟨0, _⟩ => show (j 0).val = win5_5.index t (0 : Fin 2) * 32 + 1 * (j 0).val; omega
  | ⟨1, _⟩ => show (j 1).val = win5_5.index t (1 : Fin 2) * 128 + 1 * (j 1).val; omega

theorem flushed5_6_eq (c : Dev nD) (t : Fin cfg5.N) :
    (dat5 (F := Ideal) V c).flushed 6 t = ((cfg5.win 6).blk t).view.read (Elt Ideal) (logits5 V c) := by
  show (cfg5.win 6).cut (grid5.coords t) ((dat5 (F := Ideal) V c).after 6 t) = _
  rw [after5_6]
  obtain ⟨-, -, -, -, -, -, -, -, -, -, -, e0, e1⟩ := idx_facts5 t
  funext j
  show logits5 V c j = logits5 V c (((cfg5.win 6).blk t).view.emb j)
  refine congrArg _ (funext fun a => Fin.ext ?_)
  match a with
  | ⟨0, _⟩ => show (j 0).val = win5_6.index t (0 : Fin 2) * 32 + 1 * (j 0).val; omega
  | ⟨1, _⟩ => show (j 1).val = win5_6.index t (1 : Fin 2) * 6 + 1 * (j 1).val; omega

theorem mem_blk5_5 (t : Fin cfg5.N) (i : S32x128.Idx) :
    i ∈ ((cfg5.win 5).blk t).view.set ↔ ∀ a : Fin 2, win5_5.index t a * S32x128.size a ≤ (i a).val ∧ (i a).val < win5_5.index t a * S32x128.size a + S32x128.size a := by
  show i ∈ ((View.whole main_v113_0).slice (win5_5.rect t)).set ↔ _
  rw [View.set_slice_whole, Rect.mem_set_unit]
  exact Iff.rfl

theorem mem_blk5_6 (t : Fin cfg5.N) (i : S32x6.Idx) :
    i ∈ ((cfg5.win 6).blk t).view.set ↔ ∀ a : Fin 2, win5_6.index t a * S32x6.size a ≤ (i a).val ∧ (i a).val < win5_6.index t a * S32x6.size a + S32x6.size a := by
  show i ∈ ((View.whole main_v113_1).slice (win5_6.rect t)).set ↔ _
  rw [View.set_slice_whole, Rect.mem_set_unit]
  exact Iff.rfl

theorem cover5_5 (i : S32x128.Idx) : ∃ t : Fin cfg5.N, (cfg5.win 5).flush t = true ∧ i ∈ ((cfg5.win 5).blk t).view.set := by
  have hi0 : (i 0).val < 32 := idx2_lt0 i
  have hi1 : (i 1).val < 128 := idx2_lt1 i
  obtain ⟨-, -, -, -, -, -, -, -, -, e0, e1, -⟩ := idx_facts5 last5
  refine ⟨last5, (flush5_5 last5).mpr rfl, ?_⟩
  rw [mem_blk5_5]
  intro a
  match a with
  | ⟨0, _⟩ => show win5_5.index last5 (0 : Fin 2) * 32 ≤ (i 0).val ∧ (i 0).val < win5_5.index last5 (0 : Fin 2) * 32 + 32; omega
  | ⟨1, _⟩ => show win5_5.index last5 (1 : Fin 2) * 128 ≤ (i 1).val ∧ (i 1).val < win5_5.index last5 (1 : Fin 2) * 128 + 128; omega

theorem cover5_6 (i : S32x6.Idx) : ∃ t : Fin cfg5.N, (cfg5.win 6).flush t = true ∧ i ∈ ((cfg5.win 6).blk t).view.set := by
  have hi0 : (i 0).val < 32 := idx2_lt0 i
  have hi1 : (i 1).val < 6 := idx2_lt1 i
  obtain ⟨-, -, -, -, -, -, -, -, -, -, -, e0, e1⟩ := idx_facts5 last5
  refine ⟨last5, (flush5_6 last5).mpr rfl, ?_⟩
  rw [mem_blk5_6]
  intro a
  match a with
  | ⟨0, _⟩ => show win5_6.index last5 (0 : Fin 2) * 32 ≤ (i 0).val ∧ (i 0).val < win5_6.index last5 (0 : Fin 2) * 32 + 32; omega
  | ⟨1, _⟩ => show win5_6.index last5 (1 : Fin 2) * 6 ≤ (i 1).val ∧ (i 1).val < win5_6.index last5 (1 : Fin 2) * 6 + 6; omega

theorem emb_arr (c : Dev nD) : (dat5 (F := Ideal) V c).arrAt 5 cfg5.N = emb5 V c :=
  (dat5 (F := Ideal) V c).arrAt_eq_of_cover 5 _ (fun t _ => flushed5_5_eq V c t) cover5_5

theorem logits_arr (c : Dev nD) : (dat5 (F := Ideal) V c).arrAt 6 cfg5.N = logits5 V c :=
  (dat5 (F := Ideal) V c).arrAt_eq_of_cover 6 _ (fun t _ => flushed5_6_eq V c t) cover5_6

theorem emb5_value (c : Dev nD) (batch : IVec S40000 32) (hoh : V c main_v108 = oneHot batch) (hcnt : V c main_v112 = cntK batch) :
    emb5 (F := Ideal) V c = embR batch (V c main_v101) :=
  k5_pay3_eq_embR batch (V c main_v101) (acc5 (F := Ideal) V c 4 last5.isLt) (iblk5 (F := Ideal) V c 2 last5)
    (fun g f => acc5_last_apply V c (oneHot batch) (V c main_v101) hoh rfl g f)
    (fun g => congrFun ((iblk5_2_eq V c last5).trans hcnt) (ix2 g (0 : Fin 1)))

theorem logits5_value (c : Dev nD) (batch : IVec S40000 32) (hoh : V c main_v108 = oneHot batch) (hcnt : V c main_v112 = cntK batch) :
    logits5 (F := Ideal) V c = logitsR batch (V c main_v101) (V c main_arg15) (V c main_arg16) :=
  (congrArg₂ (k5_pay4 (F := Ideal) (acc5 (F := Ideal) V c 4 last5.isLt) (iblk5 (F := Ideal) V c 2 last5))
      (iblk5_3_eq V c last5) (iblk5_4_eq V c last5)).trans
    (k5_pay4_eq_logitsR batch (V c main_v101) (acc5 (F := Ideal) V c 4 last5.isLt) (iblk5 (F := Ideal) V c 2 last5)
      (V c main_arg15) (V c main_arg16)
      (fun g f => acc5_last_apply V c (oneHot batch) (V c main_v101) hoh rfl g f)
      (fun g => congrFun ((iblk5_2_eq V c last5).trans hcnt) (ix2 g (0 : Fin 1))))

-- After the pooling region its two output arrays are the reference's pooled rows and logits.
theorem pool_results (c : Dev nD) (batch : IVec S40000 32) (hoh : V c main_v108 = oneHot batch) (hcnt : V c main_v112 = cntK batch) :
    (dat5 (F := Ideal) V c).arrAt 5 cfg5.N = embR batch (V c main_v101)
      ∧ (dat5 (F := Ideal) V c).arrAt 6 cfg5.N = logitsR batch (V c main_v101) (V c main_arg15) (V c main_arg16) :=
  ⟨(emb_arr V c).trans (emb5_value V c batch hoh hcnt), (logits_arr V c).trans (logits5_value V c batch hoh hcnt)⟩

end Cert.KernelIdeal.Val

end
-- ==== Proof.KI.Stretch0.lean ====
import proofs.«415776_j70411693851060_1_alg».proof.Proof.Gen.KernelIdeal.Launch
import proofs.«415776_j70411693851060_1_alg».proof.Proof.Gen.ReferenceIdeal.Read
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

variable (W : Valuation τ sig (Elt Ideal))

set_option maxHeartbeats 4000000 in

-- The host operations before the first dense layer are the reference's own, so each buffer they write is the reference's stage.
theorem s0_v1 : StableHlo.after (hostOps0 (F := Ideal)) W main_v1
    = Cert.ReferenceIdeal.Read.val_main_v1 (F := Ideal) (W main_arg1) := by
  show StableHlo.after (hostOps0 (F := Ideal)) W (Proc.devRef .tc main_v1) = _
  after_results
  rfl

set_option maxHeartbeats 4000000 in

theorem s0_v3 : StableHlo.after (hostOps0 (F := Ideal)) W main_v3
    = Cert.ReferenceIdeal.Read.val_main_v3 (F := Ideal) (W main_arg1) := by
  show StableHlo.after (hostOps0 (F := Ideal)) W (Proc.devRef .tc main_v3) = _
  after_results
  rfl

set_option maxHeartbeats 4000000 in

theorem s0_v5 : StableHlo.after (hostOps0 (F := Ideal)) W main_v5
    = Cert.ReferenceIdeal.Read.val_main_v5 (F := Ideal) (W main_arg1) := by
  show StableHlo.after (hostOps0 (F := Ideal)) W (Proc.devRef .tc main_v5) = _
  after_results
  rfl

set_option maxHeartbeats 4000000 in

theorem s0_v6 : StableHlo.after (hostOps0 (F := Ideal)) W main_v6
    = Cert.ReferenceIdeal.Read.val_main_v6 (F := Ideal) (W main_arg1) := by
  show StableHlo.after (hostOps0 (F := Ideal)) W (Proc.devRef .tc main_v6) = _
  after_results
  rfl

set_option maxHeartbeats 4000000 in

theorem s0_v26 : StableHlo.after (hostOps0 (F := Ideal)) W main_v26
    = Cert.ReferenceIdeal.Read.val_main_v61 (F := Ideal) (W main_arg1) := by
  show StableHlo.after (hostOps0 (F := Ideal)) W (Proc.devRef .tc main_v26) = _
  after_results
  rfl

set_option maxHeartbeats 4000000 in

theorem s0_v36 : StableHlo.after (hostOps0 (F := Ideal)) W main_v36
    = Cert.ReferenceIdeal.Read.val_main_v21 (F := Ideal) (W main_arg0) (W main_arg1) := by
  show StableHlo.after (hostOps0 (F := Ideal)) W (Proc.devRef .tc main_v36) = _
  after_results
  rfl

end Cert.KernelIdeal.Val

end
-- ==== Proof.KI.Stretch1.lean ====
import proofs.«415776_j70411693851060_1_alg».proof.Proof.Gen.KernelIdeal.Launch
import proofs.«415776_j70411693851060_1_alg».proof.Proof.Gen.ReferenceIdeal.Read
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

variable (W : Valuation τ sig (Elt Ideal))

variable (x0 : (⟨Cert.ReferenceIdeal.S40000x128, .f32⟩ : BufTy).Contents (Elt Ideal))
  (x1 : (⟨Cert.ReferenceIdeal.S2x600000, .i32⟩ : BufTy).Contents (Elt Ideal))
  (x3 x4 : (⟨Cert.ReferenceIdeal.S128x128, .f32⟩ : BufTy).Contents (Elt Ideal))
  (x5 : (⟨Cert.ReferenceIdeal.S128, .f32⟩ : BufTy).Contents (Elt Ideal))

set_option maxHeartbeats 4000000 in

-- Between the first two dense layers: gather the rows at the sources, sum them at the destinations — the reference's operations on the same operands.
theorem s1_v47
    (h1 : W main_v1 = Cert.ReferenceIdeal.Read.val_main_v1 (F := Ideal) x1)
    (h3 : W main_v3 = Cert.ReferenceIdeal.Read.val_main_v3 (F := Ideal) x1)
    (h37 : W main_v37 = Cert.ReferenceIdeal.Read.val_main_v28 (F := Ideal) x0 x1 x3 x4 x5) :
    StableHlo.after (hostOps1 (F := Ideal)) W main_v47
      = Cert.ReferenceIdeal.Read.val_main_v38 (F := Ideal) x0 x1 x3 x4 x5 := by
  show StableHlo.after (hostOps1 (F := Ideal)) W (Proc.devRef .tc main_v47) = _
  after_results
  rw [h1, h3, h37]
  rfl

end Cert.KernelIdeal.Val

end
-- ==== Proof.KI.Stretch3.lean ====
import proofs.«415776_j70411693851060_1_alg».proof.Proof.Gen.KernelIdeal.Launch
import proofs.«415776_j70411693851060_1_alg».proof.Proof.Gen.ReferenceIdeal.Read
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

variable (W : Valuation τ sig (Elt Ideal))

variable (x0 : (⟨Cert.ReferenceIdeal.S40000x128, .f32⟩ : BufTy).Contents (Elt Ideal))
  (x1 : (⟨Cert.ReferenceIdeal.S2x600000, .i32⟩ : BufTy).Contents (Elt Ideal))
  (x3 x4 : (⟨Cert.ReferenceIdeal.S128x128, .f32⟩ : BufTy).Contents (Elt Ideal))
  (x5 : (⟨Cert.ReferenceIdeal.S128, .f32⟩ : BufTy).Contents (Elt Ideal))
  (x6 x7 : (⟨Cert.ReferenceIdeal.S128x128, .f32⟩ : BufTy).Contents (Elt Ideal))
  (x8 : (⟨Cert.ReferenceIdeal.S128, .f32⟩ : BufTy).Contents (Elt Ideal))
  (x9 : (⟨Cert.ReferenceIdeal.S128x128, .f32⟩ : BufTy).Contents (Elt Ideal))
  (x10 : (⟨Cert.ReferenceIdeal.S128, .f32⟩ : BufTy).Contents (Elt Ideal))

theorem norm_copy2 : Cert.ReferenceIdeal.Read.val_main_v61 (F := Ideal) x1 = Cert.ReferenceIdeal.Read.val_main_v94 (F := Ideal) x1 := rfl

theorem norm_copy3 : Cert.ReferenceIdeal.Read.val_main_v61 (F := Ideal) x1 = Cert.ReferenceIdeal.Read.val_main_v127 (F := Ideal) x1 := rfl

set_option maxHeartbeats 4000000 in

-- Around the third dense layer: gathered rows scaled by the edge norm, summed at the destinations, bias added, then the clamp at zero.
theorem s3_v65
    (h5 : W main_v5 = Cert.ReferenceIdeal.Read.val_main_v5 (F := Ideal) x1)
    (h6 : W main_v6 = Cert.ReferenceIdeal.Read.val_main_v6 (F := Ideal) x1)
    (h26 : W main_v26 = Cert.ReferenceIdeal.Read.val_main_v61 (F := Ideal) x1)
    (h49 : W main_v49 = Cert.ReferenceIdeal.Read.val_main_v46 (F := Ideal) x0 x1 x3 x4 x5 x6 x7 x8 x9) :
    StableHlo.after (hostOps3 (F := Ideal)) W main_v65
      = Cert.ReferenceIdeal.Read.val_main_v77 (F := Ideal) x0 x1 x3 x4 x5 x6 x7 x8 x9 (W main_arg10) := by
  show StableHlo.after (hostOps3 (F := Ideal)) W (Proc.devRef .tc main_v65) = _
  after_results
  rw [h5, h6, h26, h49]
  rfl

set_option maxHeartbeats 4000000 in

theorem s3_1_v66
    (h65 : W main_v65 = Cert.ReferenceIdeal.Read.val_main_v77 (F := Ideal) x0 x1 x3 x4 x5 x6 x7 x8 x9 x10) :
    StableHlo.after (hostOps3_1 (F := Ideal)) W main_v66
      = Cert.ReferenceIdeal.Read.val_main_v78 (F := Ideal) x0 x1 x3 x4 x5 x6 x7 x8 x9 x10 := by
  show StableHlo.after (hostOps3_1 (F := Ideal)) W (Proc.devRef .tc main_v66) = _
  after_results
  rw [h65]
  rfl

end Cert.KernelIdeal.Val

end
-- ==== Proof.KI.Stretch4.lean ====
import proofs.«415776_j70411693851060_1_alg».proof.Proof.Gen.KernelIdeal.Launch
import proofs.«415776_j70411693851060_1_alg».proof.Proof.Gen.ReferenceIdeal.Read
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

variable (W : Valuation τ sig (Elt Ideal))

variable (x0 : (⟨Cert.ReferenceIdeal.S40000x128, .f32⟩ : BufTy).Contents (Elt Ideal))
  (x1 : (⟨Cert.ReferenceIdeal.S2x600000, .i32⟩ : BufTy).Contents (Elt Ideal))
  (x3 x4 : (⟨Cert.ReferenceIdeal.S128x128, .f32⟩ : BufTy).Contents (Elt Ideal))
  (x5 : (⟨Cert.ReferenceIdeal.S128, .f32⟩ : BufTy).Contents (Elt Ideal))
  (x6 x7 : (⟨Cert.ReferenceIdeal.S128x128, .f32⟩ : BufTy).Contents (Elt Ideal))
  (x8 : (⟨Cert.ReferenceIdeal.S128, .f32⟩ : BufTy).Contents (Elt Ideal))
  (x9 : (⟨Cert.ReferenceIdeal.S128x128, .f32⟩ : BufTy).Contents (Elt Ideal))
  (x10 : (⟨Cert.ReferenceIdeal.S128, .f32⟩ : BufTy).Contents (Elt Ideal))
  (x11 : (⟨Cert.ReferenceIdeal.S128x128, .f32⟩ : BufTy).Contents (Elt Ideal))
  (x12 : (⟨Cert.ReferenceIdeal.S128, .f32⟩ : BufTy).Contents (Elt Ideal))

theorem norm2_eq : Cert.ReferenceIdeal.Read.val_main_v61 (F := Ideal) x1 = Cert.ReferenceIdeal.Read.val_main_v94 (F := Ideal) x1 := rfl

set_option maxHeartbeats 4000000 in

-- The fourth graph layer after its projection, operation for operation the reference's.
theorem s4_v83
    (h5 : W main_v5 = Cert.ReferenceIdeal.Read.val_main_v5 (F := Ideal) x1)
    (h6 : W main_v6 = Cert.ReferenceIdeal.Read.val_main_v6 (F := Ideal) x1)
    (h26 : W main_v26 = Cert.ReferenceIdeal.Read.val_main_v61 (F := Ideal) x1)
    (h67 : W main_v67 = Cert.ReferenceIdeal.Read.val_main_v79 (F := Ideal) x0 x1 x3 x4 x5 x6 x7 x8 x9 x10 x11) :
    StableHlo.after (hostOps4 (F := Ideal)) W main_v83
      = Cert.ReferenceIdeal.Read.val_main_v110 (F := Ideal) x0 x1 x3 x4 x5 x6 x7 x8 x9 x10 x11 (W main_arg12) := by
  show StableHlo.after (hostOps4 (F := Ideal)) W (Proc.devRef .tc main_v83) = _
  after_results
  rw [h5, h6, h26, h67, norm2_eq]
  rfl

set_option maxHeartbeats 4000000 in

theorem s4_1_v84
    (h83 : W main_v83 = Cert.ReferenceIdeal.Read.val_main_v110 (F := Ideal) x0 x1 x3 x4 x5 x6 x7 x8 x9 x10 x11 x12) :
    StableHlo.after (hostOps4_1 (F := Ideal)) W main_v84
      = Cert.ReferenceIdeal.Read.val_main_v111 (F := Ideal) x0 x1 x3 x4 x5 x6 x7 x8 x9 x10 x11 x12 := by
  show StableHlo.after (hostOps4_1 (F := Ideal)) W (Proc.devRef .tc main_v84) = _
  after_results
  rw [h83]
  rfl

end Cert.KernelIdeal.Val

end
-- ==== Proof.KI.Stretch5.lean ====
import proofs.«415776_j70411693851060_1_alg».proof.Proof.Gen.KernelIdeal.Launch
import proofs.«415776_j70411693851060_1_alg».proof.Proof.Gen.ReferenceIdeal.Read
import proofs.«415776_j70411693851060_1_alg».proof.Proof.KI.PoolMath
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe

variable (W : Valuation τ sig (Elt Ideal))

variable (x0 : (⟨Cert.ReferenceIdeal.S40000x128, .f32⟩ : BufTy).Contents (Elt Ideal))
  (x1 : (⟨Cert.ReferenceIdeal.S2x600000, .i32⟩ : BufTy).Contents (Elt Ideal))
  (x3 x4 : (⟨Cert.ReferenceIdeal.S128x128, .f32⟩ : BufTy).Contents (Elt Ideal))
  (x5 : (⟨Cert.ReferenceIdeal.S128, .f32⟩ : BufTy).Contents (Elt Ideal))
  (x6 x7 : (⟨Cert.ReferenceIdeal.S128x128, .f32⟩ : BufTy).Contents (Elt Ideal))
  (x8 : (⟨Cert.ReferenceIdeal.S128, .f32⟩ : BufTy).Contents (Elt Ideal))
  (x9 : (⟨Cert.ReferenceIdeal.S128x128, .f32⟩ : BufTy).Contents (Elt Ideal))
  (x10 : (⟨Cert.ReferenceIdeal.S128, .f32⟩ : BufTy).Contents (Elt Ideal))
  (x11 : (⟨Cert.ReferenceIdeal.S128x128, .f32⟩ : BufTy).Contents (Elt Ideal))
  (x12 : (⟨Cert.ReferenceIdeal.S128, .f32⟩ : BufTy).Contents (Elt Ideal))
  (x13 : (⟨Cert.ReferenceIdeal.S128x128, .f32⟩ : BufTy).Contents (Elt Ideal))

theorem norm3_eq : Cert.ReferenceIdeal.Read.val_main_v61 (F := Ideal) x1 = Cert.ReferenceIdeal.Read.val_main_v127 (F := Ideal) x1 := rfl

set_option maxHeartbeats 4000000 in

-- The fifth graph layer after its projection, and the one-hot matrix and group sizes the pooling reads.
theorem s5_v101
    (h5 : W main_v5 = Cert.ReferenceIdeal.Read.val_main_v5 (F := Ideal) x1)
    (h6 : W main_v6 = Cert.ReferenceIdeal.Read.val_main_v6 (F := Ideal) x1)
    (h26 : W main_v26 = Cert.ReferenceIdeal.Read.val_main_v61 (F := Ideal) x1)
    (h85 : W main_v85 = Cert.ReferenceIdeal.Read.val_main_v112 (F := Ideal) x0 x1 x3 x4 x5 x6 x7 x8 x9 x10 x11 x12 x13) :
    StableHlo.after (hostOps5 (F := Ideal)) W main_v101
      = Cert.ReferenceIdeal.Read.val_main_v143 (F := Ideal) x0 x1 x3 x4 x5 x6 x7 x8 x9 x10 x11 x12 x13 (W main_arg14) := by
  show StableHlo.after (hostOps5 (F := Ideal)) W (Proc.devRef .tc main_v101) = _
  after_results
  rw [h5, h6, h26, h85, norm3_eq]
  rfl

set_option maxHeartbeats 4000000 in

theorem s5_v108 :
    StableHlo.after (hostOps5 (F := Ideal)) W main_v108 = Cert.KernelIdeal.PoolMath.oneHot (W main_arg2) := by
  show StableHlo.after (hostOps5 (F := Ideal)) W (Proc.devRef .tc main_v108) = _
  after_results
  rfl

set_option maxHeartbeats 4000000 in

theorem s5_v112 :
    StableHlo.after (hostOps5 (F := Ideal)) W main_v112 = Cert.KernelIdeal.PoolMath.cntK (W main_arg2) := by
  show StableHlo.after (hostOps5 (F := Ideal)) W (Proc.devRef .tc main_v112) = _
  after_results
  rfl

end Cert.KernelIdeal.Val

end
-- ==== Proof.KI.Bridge.lean ====
import proofs.«415776_j70411693851060_1_alg».proof.Proof.KI.Run
import proofs.«415776_j70411693851060_1_alg».proof.Proof.KI.RegStage
import proofs.«415776_j70411693851060_1_alg».proof.Proof.KI.Val5
import proofs.«415776_j70411693851060_1_alg».proof.Proof.KI.Stretch0
import proofs.«415776_j70411693851060_1_alg».proof.Proof.KI.Stretch1
import proofs.«415776_j70411693851060_1_alg».proof.Proof.KI.Stretch3
import proofs.«415776_j70411693851060_1_alg».proof.Proof.KI.Stretch4
import proofs.«415776_j70411693851060_1_alg».proof.Proof.KI.Stretch5
import proofs.«415776_j70411693851060_1_alg».proof.Proof.Gen.ReferenceIdeal.Run
import proofs.«415776_j70411693851060_1_alg».proof.Proof.Gen.ReferenceIdeal.Read
import proofs.«415776_j70411693851060_1_alg».proof.Defs
import proofs.«415776_j70411693851060_1_alg».proof.Proof.Gen.Pre_finite_inputs

set_option maxRecDepth 16384

noncomputable section

namespace Cert.KernelIdeal.Val

open Cert.KernelIdeal Cert.KernelIdeal.Gen Cert.KernelIdeal.Frame Cert.KernelIdeal.PoolMath
open Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

abbrev arg (r : Ref sig .tc) : Buf (Elt Ideal) ((c : Thread nD τ).loc r) := m ((c : Thread nD τ).loc r)

-- Walking the program item by item: each buffer a later item reads holds the reference's stage of the same name.
theorem at1_v1 : Bnd1 m ρ c main_v1 = val_main_v1 (F := Ideal) (arg m c main_arg1) := s0_v1 (Bnd0 m ρ c)
theorem at1_v3 : Bnd1 m ρ c main_v3 = val_main_v3 (F := Ideal) (arg m c main_arg1) := s0_v3 (Bnd0 m ρ c)
theorem at1_v5 : Bnd1 m ρ c main_v5 = val_main_v5 (F := Ideal) (arg m c main_arg1) := s0_v5 (Bnd0 m ρ c)
theorem at1_v6 : Bnd1 m ρ c main_v6 = val_main_v6 (F := Ideal) (arg m c main_arg1) := s0_v6 (Bnd0 m ρ c)
theorem at1_v26 : Bnd1 m ρ c main_v26 = val_main_v61 (F := Ideal) (arg m c main_arg1) := s0_v26 (Bnd0 m ρ c)
theorem at1_v36 : Bnd1 m ρ c main_v36 = val_main_v21 (F := Ideal) (arg m c main_arg0) (arg m c main_arg1) := s0_v36 (Bnd0 m ρ c)

theorem at2_v37 : Bnd2 m ρ c main_v37 = val_main_v28 (F := Ideal) (arg m c main_arg0) (arg m c main_arg1) (arg m c main_arg3) (arg m c main_arg4) (arg m c main_arg5) :=
  (Bnd2_arr m ρ c 5).trans (reg0_stage (Vw1 m ρ) c _ _ _ _ _ (at1_v36 m ρ c)
    (Bnd1_launch m ρ c main_arg0 (by decide)) (Bnd1_launch m ρ c main_arg4 (by decide)) (Bnd1_launch m ρ c main_arg3 (by decide)) (Bnd1_launch m ρ c main_arg5 (by decide)))

theorem at3_v47 : Bnd3 m ρ c main_v47 = val_main_v38 (F := Ideal) (arg m c main_arg0) (arg m c main_arg1) (arg m c main_arg3) (arg m c main_arg4) (arg m c main_arg5) :=
  s1_v47 (Bnd2 m ρ c) _ _ _ _ _ ((Bnd2_from1 m ρ c main_v1 (by decide)).trans (at1_v1 m ρ c))
    ((Bnd2_from1 m ρ c main_v3 (by decide)).trans (at1_v3 m ρ c)) (at2_v37 m ρ c)

theorem at4_v48 : Bnd4 m ρ c main_v48 = val_main_v45 (F := Ideal) (arg m c main_arg0) (arg m c main_arg1) (arg m c main_arg3) (arg m c main_arg4) (arg m c main_arg5) (arg m c main_arg6) (arg m c main_arg7) (arg m c main_arg8) :=
  (Bnd4_arr m ρ c 5).trans (reg1_stage (Vw3 m ρ) c _ _ _ _ _ _ _ _ (at3_v47 m ρ c)
    ((Bnd3_keep m ρ c main_v37 (by decide)).trans (at2_v37 m ρ c))
    (Bnd3_launch m ρ c main_arg7 (by decide)) (Bnd3_launch m ρ c main_arg6 (by decide)) (Bnd3_launch m ρ c main_arg8 (by decide)))

theorem at5_v49 : Bnd5 m ρ c main_v49 = val_main_v46 (F := Ideal) (arg m c main_arg0) (arg m c main_arg1) (arg m c main_arg3) (arg m c main_arg4) (arg m c main_arg5) (arg m c main_arg6) (arg m c main_arg7) (arg m c main_arg8) (arg m c main_arg9) :=
  (Bnd5_arr m ρ c 2).trans (reg2_stage (Vw4 m ρ) c _ _ _ _ _ _ _ _ _ (at4_v48 m ρ c) (Bnd4_launch m ρ c main_arg9 (by decide)))

theorem at6_v65 : Bnd6 m ρ c main_v65 = val_main_v77 (F := Ideal) (arg m c main_arg0) (arg m c main_arg1) (arg m c main_arg3) (arg m c main_arg4) (arg m c main_arg5) (arg m c main_arg6) (arg m c main_arg7) (arg m c main_arg8) (arg m c main_arg9) (arg m c main_arg10) :=
  (s3_v65 (Bnd5 m ρ c) _ _ _ _ _ _ _ _ _ ((Bnd5_from1 m ρ c main_v5 (by decide)).trans (at1_v5 m ρ c))
    ((Bnd5_from1 m ρ c main_v6 (by decide)).trans (at1_v6 m ρ c)) ((Bnd5_from1 m ρ c main_v26 (by decide)).trans (at1_v26 m ρ c))
    (at5_v49 m ρ c)).trans (by rw [Bnd5_launch m ρ c main_arg10 (by decide)])

theorem at7_v66 : Bnd7 m ρ c main_v66 = val_main_v78 (F := Ideal) (arg m c main_arg0) (arg m c main_arg1) (arg m c main_arg3) (arg m c main_arg4) (arg m c main_arg5) (arg m c main_arg6) (arg m c main_arg7) (arg m c main_arg8) (arg m c main_arg9) (arg m c main_arg10) :=
  s3_1_v66 (Bnd6 m ρ c) _ _ _ _ _ _ _ _ _ _ (at6_v65 m ρ c)

theorem at8_v67 : Bnd8 m ρ c main_v67 = val_main_v79 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) :=
  (Bnd8_arr m ρ c 2).trans (reg3_stage (Vw7 m ρ) c _ _ _ _ _ _ _ _ _ _ _ (at7_v66 m ρ c) (Bnd7_launch m ρ c main_arg11 (by decide)))

theorem at9_v83 : Bnd9 m ρ c main_v83 = val_main_v110 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) :=
  (s4_v83 (Bnd8 m ρ c) _ _ _ _ _ _ _ _ _ _ _ ((Bnd8_from1 m ρ c main_v5 (by decide)).trans (at1_v5 m ρ c))
    ((Bnd8_from1 m ρ c main_v6 (by decide)).trans (at1_v6 m ρ c)) ((Bnd8_from1 m ρ c main_v26 (by decide)).trans (at1_v26 m ρ c))
    (at8_v67 m ρ c)).trans (by rw [Bnd8_launch m ρ c main_arg12 (by decide)])

theorem at10_v84 : Bnd10 m ρ c main_v84 = val_main_v111 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) :=
  s4_1_v84 (Bnd9 m ρ c) _ _ _ _ _ _ _ _ _ _ _ _ (at9_v83 m ρ c)

theorem at11_v85 : Bnd11 m ρ c main_v85 = val_main_v112 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) :=
  (Bnd11_arr m ρ c 2).trans (reg4_stage (Vw10 m ρ) c _ _ _ _ _ _ _ _ _ _ _ _ _ (at10_v84 m ρ c) (Bnd10_launch m ρ c main_arg13 (by decide)))

theorem at12_v101 : Bnd12 m ρ c main_v101 = val_main_v143 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) :=
  (s5_v101 (Bnd11 m ρ c) _ _ _ _ _ _ _ _ _ _ _ _ _ ((Bnd11_from1 m ρ c main_v5 (by decide)).trans (at1_v5 m ρ c))
    ((Bnd11_from1 m ρ c main_v6 (by decide)).trans (at1_v6 m ρ c)) ((Bnd11_from1 m ρ c main_v26 (by decide)).trans (at1_v26 m ρ c))
    (at11_v85 m ρ c)).trans (by rw [Bnd11_launch m ρ c main_arg14 (by decide)])

theorem at12_v108 : Bnd12 m ρ c main_v108 = oneHot (arg m c main_arg2) :=
  (s5_v108 (Bnd11 m ρ c)).trans (by rw [Bnd11_launch m ρ c main_arg2 (by decide)])

theorem at12_v112 : Bnd12 m ρ c main_v112 = cntK (arg m c main_arg2) :=
  (s5_v112 (Bnd11 m ρ c)).trans (by rw [Bnd11_launch m ρ c main_arg2 (by decide)])

-- So the pooling region's two outputs are the reference's two results,
theorem results :
    (dat5 (F := Ideal) (Vw12 m ρ) c).arrAt 6 cfg5.N = val_main_v159 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)
    ∧ (dat5 (F := Ideal) (Vw12 m ρ) c).arrAt 5 cfg5.N = val_main_v155 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  obtain ⟨he, hl⟩ := pool_results (Vw12 m ρ) c (arg m c main_arg2) (at12_v108 m ρ c) (at12_v112 m ρ c)
  have h101 : Vw12 m ρ c main_v101 = val_main_v143 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := at12_v101 m ρ c
  have h15 : Vw12 m ρ c main_arg15 = (arg m c main_arg15) := Bnd12_launch m ρ c main_arg15 (by decide)
  have h16 : Vw12 m ρ c main_arg16 = (arg m c main_arg16) := Bnd12_launch m ρ c main_arg16 (by decide)
  refine ⟨hl.trans ?_, he.trans ?_⟩
  · rw [h101, h15, h16]; rfl
  · rw [h101]; rfl

-- and both programs, run from memories agreeing on the arguments, end with equal results.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Frame.run_named (F := Ideal) m ρ, ?_⟩
  refine (θ_run Cert.ReferenceIdeal.defs _ _).mono (fun _ h c => ?_) (Cert.ReferenceIdeal.Value.run (F := Ideal) m' ρ')
  obtain ⟨h159, h155, hargs⟩ := h c
  obtain ⟨a0, a1, a2, a3, a4, a5, a6, a7, a8, a9, a10, a11, a12, a13, a14, a15, a16⟩ := hagree c
  refine ⟨h159.trans ?_, h155.trans ?_, hargs⟩
  · rw [val_main_v159_eq, a0, a1, a2, a3, a4, a5, a6, a7, a8, a9, a10, a11, a12, a13, a14, a15, a16]
    exact ((results m ρ c).1).symm
  · rw [val_main_v155_eq, a0, a1, a2, a3, a4, a5, a6, a7, a8, a9, a10, a11, a12, a13, a14]
    exact ((results m ρ c).2).symm

end Cert.KernelIdeal.Val

end
-- ==== Proof.lean ====
import proofs.«415776_j70411693851060_1_alg».proof.Defs
import proofs.«415776_j70411693851060_1_alg».proof.Proof.Gen.Kernel
import proofs.«415776_j70411693851060_1_alg».proof.Proof.Gen.KernelIdeal
import proofs.«415776_j70411693851060_1_alg».proof.Proof.Gen.ReferenceIdeal
import proofs.«415776_j70411693851060_1_alg».proof.Proof.Gen.Pre_finite_inputs
import proofs.«415776_j70411693851060_1_alg».proof.Proof.Gen.ReferenceIdeal.Run
import proofs.«415776_j70411693851060_1_alg».proof.Proof.Gen.ReferenceIdeal.Read
import proofs.«415776_j70411693851060_1_alg».proof.Proof.KI.Run
import proofs.«415776_j70411693851060_1_alg».proof.Proof.KI.Bridge
import Idealize.ShloMosaic.Adequacy
import Idealize.ShloMosaic.Init

noncomputable section

namespace Cert.Proof

open Idealize.ShloMosaic Idealize.SL.Sem Idealize.ShloMosaic.Tactic

-- Both kernel programs are one text, so the frame proved for every float instance is also the machine-word program's.
theorem frame_k : Cert.frame_Kernel (hKernel := Cert.Kernel.Gen.facts) (hPre_finite_inputs := Cert.Pre_finite_inputs.Gen.facts) :=
  fun m ρ _ => cast (by sl_kernel_rfl) (Cert.KernelIdeal.Frame.frame_all (F := Bits) m ρ)

theorem frame_ki : Cert.frame_KernelIdeal (hKernelIdeal := Cert.KernelIdeal.Gen.facts) (hPre_finite_inputs := Cert.Pre_finite_inputs.Gen.facts) :=
  fun m ρ _ => Cert.KernelIdeal.Frame.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Val.algebraic⟩

end Cert.Proof

end
